-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x1024x1024 : Shape := ⟨4, ![1, 16, 1024, 1024]⟩
abbrev S16384 : Shape := ⟨1, ![16384]⟩
abbrev S1x1x1024x1024 : Shape := ⟨4, ![1, 1, 1024, 1024]⟩
abbrev S2x16384 : Shape := ⟨2, ![2, 16384]⟩
abbrev S_ : Shape := ⟨0, ![]⟩

class Facts : Prop where
  bcast_S_S1x16x1024x1024 : S_.BroadcastsInDim S1x16x1024x1024 (![] : Fin 0 → Fin S1x16x1024x1024.rank)
  reducesTo_S1x16x1024x1024_S_d0_1_2_3 : S1x16x1024x1024.ReducesTo [0, 1, 2, 3] S_
  h_S_ : 0 < S_.numel
  bcast_S_S16384 : S_.BroadcastsInDim S16384 (![] : Fin 0 → Fin S16384.rank)
  reducesTo_S16384_S_d0 : S16384.ReducesTo [0] S_
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1x16x1024x1024 .f32) (main_arg1 : FVec F S16384 .f32) (main_arg2 : IVec S1x1x1024x1024 32) (main_arg3 : IVec S2x16384 32) : IVec S_ 1 :=
  let main_v0 : FVec F S1x16x1024x1024 .f32 := Host.absf main_arg0
  let main_cst : FVec F S_ .f32 := constant S_ .f32 0x7F800000#32
  let main_v1 : FVec F S1x16x1024x1024 .f32 := broadcastInDim S1x16x1024x1024 ![] bcast_S_S1x16x1024x1024 main_cst
  let main_v2 : IVec S1x16x1024x1024 1 := cmpf .olt main_v0 main_v1
  let main_c : IVec S_ 1 := constantI S_ 1 1#1
  let main_v3 : IVec S_ 1 := (fun x v => Host.reduce IntOp.andi x v reducesTo_S1x16x1024x1024_S_d0_1_2_3 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_c_2 : IVec S_ 32 := constantI S_ 32 0#32
  let main_v9 : IVec S1x1x1024x1024 32 := broadcastInDim S1x1x1024x1024 ![] bcast_S_S1x1x1024x1024 main_c_2
  let main_v10 : IVec S1x1x1024x1024 1 := cmpi .sge main_arg2 main_v9
  let main_c_3 : IVec S_ 1 := constantI S_ 1 1#1
  let main_v11 : IVec S_ 1 := (fun x v => Host.reduce IntOp.andi x v reducesTo_S1x1x1024x1024_S_d0_1_2_3 h_S_) main_v10 main_c_3
  let main_v12 : IVec S_ 1 := andi main_v8 main_v11
  let main_c_4 : IVec S_ 32 := constantI S_ 32 4096#32
  let main_v13 : IVec S1x1x1024x1024 32 := broadcastInDim S1x1x1024x1024 ![] bcast_S_S1x1x1024x1024 main_c_4
  let main_v14 : IVec S1x1x1024x1024 1 := cmpi .slt main_arg2 main_v13
  let main_c_5 : IVec S_ 1 := constantI S_ 1 1#1
  let main_v15 : IVec S_ 1 := (fun x v => Host.reduce IntOp.andi x v reducesTo_S1x1x1024x1024_S_d0_1_2_3 h_S_) main_v14 main_c_5
  fn_part1 (F := F) main_v12 main_v15
-- ==== Kernel.lean ====
abbrev S1x16x1024x1024 : Shape := ⟨4, ![1, 16, 1024, 1024]⟩
abbrev S16384 : Shape := ⟨1, ![16384]⟩
abbrev S1x1x1024x1024 : Shape := ⟨4, ![1, 1, 1024, 1024]⟩
abbrev S2x16384 : Shape := ⟨2, ![2, 16384]⟩
abbrev S16x1048576 : Shape := ⟨2, ![16, 1048576]⟩
abbrev S1x1048576 : Shape := ⟨2, ![1, 1048576]⟩
abbrev S2x16x256 : Shape := ⟨3, ![2, 16, 256]⟩
abbrev S2x256x256 : Shape := ⟨3, ![2, 256, 256]⟩
abbrev S16x2048 : Shape := ⟨2, ![16, 2048]⟩
abbrev S1x2048 : Shape := ⟨2, ![1, 2048]⟩
abbrev S1x16x256 : Shape := ⟨3, ![1, 16, 256]⟩
abbrev S1x256x256 : Shape := ⟨3, ![1, 256, 256]⟩
abbrev S16x256 : Shape := ⟨2, ![16, 256]⟩
abbrev S256x256 : Shape := ⟨2, ![256, 256]⟩
abbrev S256x2048 : Shape := ⟨2, ![256, 2048]⟩
abbrev S_ : Shape := ⟨0, ![]⟩
abbrev S4096 : Shape := ⟨1, ![4096]⟩
abbrev S16x16x256 : Shape := ⟨3, ![16, 16, 256]⟩
abbrev S16x4096 : Shape := ⟨2, ![16, 4096]⟩
abbrev S1x4096 : Shape := ⟨2, ![1, 4096]⟩
abbrev S2048 : Shape := ⟨1, ![2048]⟩
abbrev S4096x16 : Shape := ⟨2, ![4096, 16]⟩
abbrev S1x16384 : Shape := ⟨2, ![1, 16384]⟩
abbrev S16384x1 : Shape := ⟨2, ![16384, 1]⟩
abbrev S16384x16 : Shape := ⟨2, ![16384, 16]⟩

abbrev nBuf : Space → Nat
  | .hbm => 79
  | .vmem => 18
  | .smem => 0
  | _ => 0

abbrev bufTy : (tb : Table) → Fin (tcTables nBuf tb) → BufTy
  | .hbm, ⟨0, _⟩ => ⟨S1x16x1024x1024, .f32⟩
  | .hbm, ⟨1, _⟩ => ⟨S16384, .f32⟩
  | .hbm, ⟨2, _⟩ => ⟨S1x1x1024x1024, .i32⟩
  | .hbm, ⟨3, _⟩ => ⟨S2x16384, .i32⟩
  | .hbm, ⟨4, _⟩ => ⟨S16x1048576, .f32⟩
  | .hbm, ⟨5, _⟩ => ⟨S1x1048576, .i32⟩
  | .hbm, ⟨6, _⟩ => ⟨S2x16x256, .f32⟩
  | .hbm, ⟨7, _⟩ => ⟨S2x256x256, .f32⟩
  | .hbm, ⟨8, _⟩ => ⟨S_, .f32⟩
  | .hbm, ⟨9, _⟩ => ⟨S16x256, .f32⟩
  | .hbm, ⟨10, _⟩ => ⟨S_, .f32⟩
  | .hbm, ⟨11, _⟩ => ⟨S256x256, .f32⟩
  | .hbm, ⟨12, _⟩ => ⟨S4096, .f32⟩
  | .hbm, ⟨13, _⟩ => ⟨S16x16x256, .f32⟩
  | .hbm, ⟨14, _⟩ => ⟨S16x16x256, .f32⟩
  | .hbm, ⟨15, _⟩ => ⟨S16x4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S16x4096, .f32⟩
  | .hbm, ⟨21, _⟩ => ⟨S16x4096, .f32⟩
  | .hbm, ⟨22, _⟩ => ⟨S16x16x256, .f32⟩
  | .hbm, ⟨23, _⟩ => ⟨S16x16x256, .f32⟩
  | .hbm, ⟨24, _⟩ => ⟨S256x256, .f32⟩
  | .hbm, ⟨25, _⟩ => ⟨S2x16x256, .f32⟩
  | .hbm, ⟨26, _⟩ => ⟨S_, .f32⟩
  | .hbm, ⟨27, _⟩ => ⟨S16x256, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4096x16, .f32⟩
  | .hbm, ⟨35, _⟩ => ⟨S1x16384, .i32⟩
  | .hbm, ⟨36, _⟩ => ⟨S16384, .i32⟩
  | .hbm, ⟨37, _⟩ => ⟨S1x16384, .i32⟩
  | .hbm, ⟨38, _⟩ => ⟨S16384, .i32⟩
  | .hbm, ⟨39, _⟩ => ⟨S_, .i32⟩
  | .hbm, ⟨40, _⟩ => ⟨S16384, .i32⟩
  | .hbm, ⟨41, _⟩ => ⟨S16384, .i1⟩
  | .hbm, ⟨42, _⟩ => ⟨S_, .i32⟩
  | .hbm, ⟨43, _⟩ => ⟨S16384, .i32⟩
  | .hbm, ⟨44, _⟩ => ⟨S16384, .i32⟩
  | .hbm, ⟨45, _⟩ => ⟨S16384, .i32⟩
  | .hbm, ⟨46, _⟩ => ⟨S16384x1, .i32⟩
  | .hbm, ⟨47, _⟩ => ⟨S16384x16, .f32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S16384x16, .f32⟩
  | .hbm, ⟨57, _⟩ => ⟨S16384x16, .f32⟩
  | .hbm, ⟨58, _⟩ => ⟨S_, .f32⟩
  | .hbm, ⟨59, _⟩ => ⟨S16384, .f32⟩
  | .hbm, ⟨60, _⟩ => ⟨S_, .f32⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S_, .f32⟩
  | .hbm, ⟨65, _⟩ => ⟨S16384, .f32⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S16x2048, .f32⟩
  | .local _ .vmem, ⟨1, _⟩ => ⟨S16x2048, .f32⟩
  | .local _ .vmem, ⟨2, _⟩ => ⟨S1x2048, .i32⟩
  | .local _ .vmem, ⟨3, _⟩ => ⟨S1x2048, .i32⟩
  | .local _ .vmem, ⟨4, _⟩ => ⟨S1x16x256, .f32⟩
  | .local _ .vmem, ⟨5, _⟩ => ⟨S1x16x256, .f32⟩
  | .local _ .vmem, ⟨6, _⟩ => ⟨S1x256x256, .f32⟩
  | .local _ .vmem, ⟨7, _⟩ => ⟨S1x256x256, .f32⟩
  | .local _ .vmem, ⟨8, _⟩ => ⟨S16x256, .f32⟩
  | .local _ .vmem, ⟨9, _⟩ => ⟨S256x256, .f32⟩
  | .local _ .vmem, ⟨10, _⟩ => ⟨S16x2048, .f32⟩
  | .local _ .vmem, ⟨11, _⟩ => ⟨S16x2048, .f32⟩
  | .local _ .vmem, ⟨12, _⟩ => ⟨S1x2048, .i32⟩
  | .local _ .vmem, ⟨13, _⟩ => ⟨S1x2048, .i32⟩
  | .local _ .vmem, ⟨14, _⟩ => ⟨S256x256, .f32⟩
  | .local _ .vmem, ⟨15, _⟩ => ⟨S1x16x256, .f32⟩
  | .local _ .vmem, ⟨16, _⟩ => ⟨S1x16x256, .f32⟩
  | .local _ .vmem, ⟨17, _⟩ => ⟨S16x256, .f32⟩
  | _, _ => ⟨S1x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_cst_15 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 256], ![false, false]⟩

def k0_cond2 (i : grid0.Coords) : BitVec 1 :=
  let arg1 : BitVec 32 := BitVec.ofNat 32 (i 1).val
  let c255_i32_13 : BitVec 32 := 255#32
  let v85 : BitVec 1 := Scalar.cmpi .eq arg1 c255_i32_13
  let v86 : BitVec 32 := Scalar.extui v85
  let c0_i32_14 : BitVec 32 := 0#32
  let v87 : BitVec 1 := Scalar.cmpi .ne v86 c0_i32_14
  v87

def cc0_transform_0 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 256], ![false, false]⟩

def k1_cond2 (i : grid1.Coords) : BitVec 1 :=
  let arg1 : BitVec 32 := BitVec.ofNat 32 (i 1).val
  let c255_i32_16 : BitVec 32 := 255#32
  let v125 : BitVec 1 := Scalar.cmpi .eq arg1 c255_i32_16
  let v126 : BitVec 32 := Scalar.extui v125
  let c0_i32_17 : BitVec 32 := 0#32
  let v127 : BitVec 1 := Scalar.cmpi .ne v126 c0_i32_17
  v127

def cc1_transform_0 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x16x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1x16x1024x1024_S16x1048576 : S1x16x1024x1024.ShapeCasts S16x1048576
  shapeCasts_S1x1x1024x1024_S1x1048576 : S1x1x1024x1024.ShapeCasts S1x1048576
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S256x2048_d0_w32 : S256x2048.Iotas .tc 32 [0]
  broadcasts_S1x2048_S256x2048 : S1x2048.Broadcasts S256x2048
  natLt_1_32 : 1 < 32
  bitsLt_bf16_f32 : FTy.bits .bf16 < FTy.bits .f32
  iota_S16x2048_d0_w32 : S16x2048.Iotas .tc 32 [0]
  broadcasts_S1x2048_S16x2048 : S1x2048.Broadcasts S16x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  slices_S16x2048_o0_0_S1x2048 : S16x2048.Slices ![0, 0] S1x2048
  slices_S16x2048_o1_0_S1x2048 : S16x2048.Slices ![1, 0] S1x2048
  slices_S16x2048_o2_0_S1x2048 : S16x2048.Slices ![2, 0] S1x2048
  slices_S16x2048_o3_0_S1x2048 : S16x2048.Slices ![3, 0] S1x2048
  slices_S16x2048_o4_0_S1x2048 : S16x2048.Slices ![4, 0] S1x2048
  slices_S16x2048_o5_0_S1x2048 : S16x2048.Slices ![5, 0] S1x2048
  slices_S16x2048_o6_0_S1x2048 : S16x2048.Slices ![6, 0] S1x2048
  slices_S16x2048_o7_0_S1x2048 : S16x2048.Slices ![7, 0] S1x2048
  slices_S16x2048_o8_0_S1x2048 : S16x2048.Slices ![8, 0] S1x2048
  slices_S16x2048_o9_0_S1x2048 : S16x2048.Slices ![9, 0] S1x2048
  slices_S16x2048_o10_0_S1x2048 : S16x2048.Slices ![10, 0] S1x2048
  slices_S16x2048_o11_0_S1x2048 : S16x2048.Slices ![11, 0] S1x2048
  slices_S16x2048_o12_0_S1x2048 : S16x2048.Slices ![12, 0] S1x2048
  slices_S16x2048_o13_0_S1x2048 : S16x2048.Slices ![13, 0] S1x2048
  slices_S16x2048_o14_0_S1x2048 : S16x2048.Slices ![14, 0] S1x2048
  slices_S16x2048_o15_0_S1x2048 : S16x2048.Slices ![15, 0] S1x2048
  concatenates_S16x2048_S16x2048_S16x2048_S16x2048_S16x2048_S16x2048_S16x2048_S16x2048_S16x2048_S16x2048_S16x2048_S16x2048_S16x2048_S16x2048_S16x2048_S16x2048_S256x2048_d0 : Shape.Concatenates [S16x2048, S16x2048, S16x2048, S16x2048, S16x2048, S16x2048, S16x2048, S16x2048, S16x2048, S16x2048, S16x2048, S16x2048, S16x2048, S16x2048, S16x2048, S16x2048] S256x2048 0
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  reducesTo_S2x16x256_S16x256_d0 : S2x16x256.ReducesTo [0] S16x256
  h_S_ : 0 < S_.numel
  reducesTo_S2x256x256_S256x256_d0 : S2x256x256.ReducesTo [0] S256x256
  shapeCasts_S16x256_S4096 : S16x256.ShapeCasts S4096
  shapeCasts_S256x256_S16x16x256 : S256x256.ShapeCasts S16x16x256
  transposes_S16x16x256_S16x16x256_1_0_2 : S16x16x256.Transposes [1, 0, 2] S16x16x256
  shapeCasts_S16x16x256_S16x4096 : S16x16x256.ShapeCasts S16x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  shapeCasts_S16x4096_S16x16x256 : S16x4096.ShapeCasts S16x16x256
  shapeCasts_S16x16x256_S256x256 : S16x16x256.ShapeCasts S256x256
  slices_S256x2048_o0_0_S16x2048 : S256x2048.Slices ![0, 0] S16x2048
  slices_S256x2048_o16_0_S16x2048 : S256x2048.Slices ![16, 0] S16x2048
  slices_S256x2048_o32_0_S16x2048 : S256x2048.Slices ![32, 0] S16x2048
  slices_S256x2048_o48_0_S16x2048 : S256x2048.Slices ![48, 0] S16x2048
  slices_S256x2048_o64_0_S16x2048 : S256x2048.Slices ![64, 0] S16x2048
  slices_S256x2048_o80_0_S16x2048 : S256x2048.Slices ![80, 0] S16x2048
  slices_S256x2048_o96_0_S16x2048 : S256x2048.Slices ![96, 0] S16x2048
  slices_S256x2048_o112_0_S16x2048 : S256x2048.Slices ![112, 0] S16x2048
  slices_S256x2048_o128_0_S16x2048 : S256x2048.Slices ![128, 0] S16x2048
  slices_S256x2048_o144_0_S16x2048 : S256x2048.Slices ![144, 0] S16x2048
  slices_S256x2048_o160_0_S16x2048 : S256x2048.Slices ![160, 0] S16x2048
  slices_S256x2048_o176_0_S16x2048 : S256x2048.Slices ![176, 0] S16x2048
  slices_S256x2048_o192_0_S16x2048 : S256x2048.Slices ![192, 0] S16x2048
  slices_S256x2048_o208_0_S16x2048 : S256x2048.Slices ![208, 0] S16x2048
  slices_S256x2048_o224_0_S16x2048 : S256x2048.Slices ![224, 0] S16x2048
  slices_S256x2048_o240_0_S16x2048 : S256x2048.Slices ![240, 0] S16x2048
  reduces_S16x2048_S2048 : S16x2048.Reduces [0] S2048
  shapeCasts_S2048_S1x2048 : S2048.ShapeCasts S1x2048
  reducesTo_S4096_S_d0 : S4096.ReducesTo [0] S_
  transposes_S16x4096_S4096x16_1_0 : S16x4096.Transposes [1, 0] S4096x16
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384x16_S16384_d1 : S16384x16.ReducesTo [1] S16384
  reducesTo_S16384_S_d0 : S16384.ReducesTo [0] S_
  dot_S256x2048_S256x2048_S256x256_1_1_0_0_n_n_wf : DotDims.WF S256x2048 S256x2048 S256x256 [1] [1] [0] [0] [] []
  dot_S16x2048_S256x2048_S16x256_1_1_0_0_n_n_wf : DotDims.WF S16x2048 S256x2048 S16x256 [1] [1] [0] [0] [] []
  dot_S256x256_S256x2048_S256x2048_1_0_0_1_n_n_wf : DotDims.WF S256x256 S256x2048 S256x2048 [1] [0] [0] [1] [] []
  gather_S4096x16_S16384x1_S16384x16_1_0_n_n_0_1_116_wf : GatherDims.WF S4096x16 S16384x1 S16384x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048.size a ≤ S16x1048576.size a
  hwx0_0 : ∀ i : grid0.Coords, EltTy.bits .f32 = 32 ∨ (Rect.block (s := S16x1048576) S16x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x1048576.size a
  hwx0_1 : ∀ i : grid0.Coords, EltTy.bits .i32 = 32 ∨ (Rect.block (s := S1x1048576) S1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256.size a ≤ S2x16x256.size a
  hwx0_2 : ∀ i : grid0.Coords, EltTy.bits .f32 = 32 ∨ (Rect.block (s := S2x16x256) S1x16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S2x256x256.size a
  hwx0_3 : ∀ i : grid0.Coords, EltTy.bits .f32 = 32 ∨ (Rect.block (s := S2x256x256) S1x256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x2048.size a ≤ S16x1048576.size a
  hwx1_0 : ∀ i : grid1.Coords, EltTy.bits .f32 = 32 ∨ (Rect.block (s := S16x1048576) S16x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x1048576.size a
  hwx1_1 : ∀ i : grid1.Coords, EltTy.bits .i32 = 32 ∨ (Rect.block (s := S1x1048576) S1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x16x256.size a ≤ S2x16x256.size a
  hwx1_3 : ∀ i : grid1.Coords, EltTy.bits .f32 = 32 ∨ (Rect.block (s := S2x16x256) S1x16x256.size (cc1_transform_3 i) (hinb1_3 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf
def dot_S16x2048_S256x2048_S16x256_1_1_0_0_n_n : DotDims S16x2048 S256x2048 S16x256 where
  lhsContracting := [1]
  rhsContracting := [1]
  lhsNonContracting := [0]
  rhsNonContracting := [0]
  lhsBatch := []
  rhsBatch := []
  wf := dot_S16x2048_S256x2048_S16x256_1_1_0_0_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def gather_S4096x16_S16384x1_S16384x16_1_0_n_n_0_1_116 : GatherDims S4096x16 S16384x1 S16384x16 where
  offsetDims := [1]
  collapsedSliceDims := [0]
  operandBatchingDims := []
  startIndicesBatchingDims := []
  startIndexMap := [0]
  indexVectorDim := 1
  sliceSizes := ![1, 16]
  wf := gather_S4096x16_S16384x1_S16384x16_1_0_n_n_0_1_116_wf

abbrev win0_0 : Pipeline.Window sig grid0 :=
  Pipeline.Window.ofSpec (Memref.whole main_v0) S16x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x16x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S16x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x16x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1x16x1024x1024 : Shape := ⟨4, ![1, 16, 1024, 1024]⟩
abbrev S16384 : Shape := ⟨1, ![16384]⟩
abbrev S1x1x1024x1024 : Shape := ⟨4, ![1, 1, 1024, 1024]⟩
abbrev S2x16384 : Shape := ⟨2, ![2, 16384]⟩
abbrev S16x1048576 : Shape := ⟨2, ![16, 1048576]⟩
abbrev S1048576x16 : Shape := ⟨2, ![1048576, 16]⟩
abbrev S1048576 : Shape := ⟨1, ![1048576]⟩
abbrev S_ : Shape := ⟨0, ![]⟩
abbrev S4096 : Shape := ⟨1, ![4096]⟩
abbrev S1048576x1 : Shape := ⟨2, ![1048576, 1]⟩
abbrev S4096x16 : Shape := ⟨2, ![4096, 16]⟩
abbrev S4096x1 : Shape := ⟨2, ![4096, 1]⟩
abbrev S1x16384 : Shape := ⟨2, ![1, 16384]⟩
abbrev S16384x1 : Shape := ⟨2, ![16384, 1]⟩
abbrev S16384x16 : Shape := ⟨2, ![16384, 16]⟩

abbrev nBuf : Space → Nat
  | .hbm => 102
  | .vmem => 0
  | .smem => 0
  | _ => 0

abbrev bufTy : (tb : Table) → Fin (tcTables nBuf tb) → BufTy
  | .hbm, ⟨0, _⟩ => ⟨S1x16x1024x1024, .f32⟩
  | .hbm, ⟨1, _⟩ => ⟨S16384, .f32⟩
  | .hbm, ⟨2, _⟩ => ⟨S1x1x1024x1024, .i32⟩
  | .hbm, ⟨3, _⟩ => ⟨S2x16384, .i32⟩
  | .hbm, ⟨4, _⟩ => ⟨S16x1048576, .f32⟩
  | .hbm, ⟨5, _⟩ => ⟨S1048576x16, .f32⟩
  | .hbm, ⟨6, _⟩ => ⟨S1048576, .i32⟩
  | .hbm, ⟨7, _⟩ => ⟨S_, .f32⟩
  | .hbm, ⟨8, _⟩ => ⟨S1048576, .f32⟩
  | .hbm, ⟨9, _⟩ => ⟨S_, .f32⟩
  | .hbm, ⟨10, _⟩ => ⟨S4096, .f32⟩
  | .hbm, ⟨11, _⟩ => ⟨S1048576x1, .i32⟩
  | .hbm, ⟨12, _⟩ => ⟨S4096, .f32⟩
  | .hbm, ⟨13, _⟩ => ⟨S_, .f32⟩
  | .hbm, ⟨14, _⟩ => ⟨S4096x16, .f32⟩
  | .hbm, ⟨15, _⟩ => ⟨S1048576x1, .i32⟩
  | .hbm, ⟨16, _⟩ => ⟨S4096x16, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x16, .f32⟩
  | .hbm, ⟨22, _⟩ => ⟨S4096x16, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x16, .f32⟩
  | .hbm, ⟨32, _⟩ => ⟨S1048576x16, .f32⟩
  | .hbm, ⟨33, _⟩ => ⟨S_, .f32⟩
  | .hbm, ⟨34, _⟩ => ⟨S1048576, .f32⟩
  | .hbm, ⟨35, _⟩ => ⟨S_, .f32⟩
  | .hbm, ⟨36, _⟩ => ⟨S1048576, .f32⟩
  | .hbm, ⟨37, _⟩ => ⟨S1048576, .f32⟩
  | .hbm, ⟨38, _⟩ => ⟨S_, .f32⟩
  | .hbm, ⟨39, _⟩ => ⟨S1048576, .f32⟩
  | .hbm, ⟨40, _⟩ => ⟨S1048576, .f32⟩
  | .hbm, ⟨41, _⟩ => ⟨S_, .f32⟩
  | .hbm, ⟨42, _⟩ => ⟨S1048576, .f32⟩
  | .hbm, ⟨43, _⟩ => ⟨S1048576, .f32⟩
  | .hbm, ⟨44, _⟩ => ⟨S_, .i32⟩
  | .hbm, ⟨45, _⟩ => ⟨S1048576, .i32⟩
  | .hbm, ⟨46, _⟩ => ⟨S1048576, .i1⟩
  | .hbm, ⟨47, _⟩ => ⟨S_, .i32⟩
  | .hbm, ⟨48, _⟩ => ⟨S1048576, .i32⟩
  | .hbm, ⟨49, _⟩ => ⟨S1048576, .i32⟩
  | .hbm, ⟨50, _⟩ => ⟨S1048576, .i32⟩
  | .hbm, ⟨51, _⟩ => ⟨S1048576x1, .i32⟩
  | .hbm, ⟨52, _⟩ => ⟨S1048576, .f32⟩
  | .hbm, ⟨53, _⟩ => ⟨S1048576, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S1x16384, .i32⟩
  | .hbm, ⟨59, _⟩ => ⟨S16384, .i32⟩
  | .hbm, ⟨60, _⟩ => ⟨S1x16384, .i32⟩
  | .hbm, ⟨61, _⟩ => ⟨S16384, .i32⟩
  | .hbm, ⟨62, _⟩ => ⟨S_, .i32⟩
  | .hbm, ⟨63, _⟩ => ⟨S16384, .i32⟩
  | .hbm, ⟨64, _⟩ => ⟨S16384, .i1⟩
  | .hbm, ⟨65, _⟩ => ⟨S_, .i32⟩
  | .hbm, ⟨66, _⟩ => ⟨S16384, .i32⟩
  | .hbm, ⟨67, _⟩ => ⟨S16384, .i32⟩
  | .hbm, ⟨68, _⟩ => ⟨S16384, .i32⟩
  | .hbm, ⟨69, _⟩ => ⟨S16384x1, .i32⟩
  | .hbm, ⟨70, _⟩ => ⟨S16384x16, .f32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S16384x1, .i32⟩
  | .hbm, ⟨79, _⟩ => ⟨S16384x16, .f32⟩
  | .hbm, ⟨80, _⟩ => ⟨S16384x16, .f32⟩
  | .hbm, ⟨81, _⟩ => ⟨S_, .f32⟩
  | .hbm, ⟨82, _⟩ => ⟨S16384, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S16384, .f32⟩
  | .hbm, ⟨87, _⟩ => ⟨S_, .f32⟩
  | .hbm, ⟨88, _⟩ => ⟨S16384, .f32⟩
  | .hbm, ⟨89, _⟩ => ⟨S16384, .f32⟩
  | .hbm, ⟨90, _⟩ => ⟨S_, .f32⟩
  | .hbm, ⟨91, _⟩ => ⟨S16384, .f32⟩
  | .hbm, ⟨92, _⟩ => ⟨S16384, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S1x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_v44 : Ref sig .tc := ⟨.hbm, 63, rfl⟩
abbrev main_v45 : Ref sig .tc := ⟨.hbm, 64, rfl⟩
abbrev main_c_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_14 : Ref sig .tc := ⟨.hbm, 71, rfl⟩
abbrev main_v51 : Ref sig .tc := ⟨.hbm, 72, rfl⟩
abbrev main_v52 : Ref sig .tc := ⟨.hbm, 73, rfl⟩
abbrev main_c_15 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_18 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_v66 : Ref sig .tc := ⟨.hbm, 92, rfl⟩
abbrev main_cst_20 : Ref sig .tc := ⟨.hbm, 93, rfl⟩
abbrev main_v67 : Ref sig .tc := ⟨.hbm, 94, rfl⟩
abbrev main_cst_21 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_cst_23 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  shapeCasts_S1x16x1024x1024_S16x1048576 : S1x16x1024x1024.ShapeCasts S16x1048576
  transposes_S16x1048576_S1048576x16_1_0 : S16x1048576.Transposes [1, 0] S1048576x16
  shapeCasts_S1x1x1024x1024_S1048576 : S1x1x1024x1024.ShapeCasts S1048576
  bcast_S_S1048576 : S_.BroadcastsInDim S1048576 (![] : Fin 0 → Fin S1048576.rank)
  bcast_S_S4096 : S_.BroadcastsInDim S4096 (![] : Fin 0 → Fin S4096.rank)
  bcast_S1048576_S1048576x1_0 : S1048576.BroadcastsInDim S1048576x1 (![0] : Fin 1 → Fin S1048576x1.rank)
  bcast_S_S4096x16 : S_.BroadcastsInDim S4096x16 (![] : Fin 0 → Fin S4096x16.rank)
  bcast_S4096_S4096x1_0 : S4096.BroadcastsInDim S4096x1 (![0] : Fin 1 → Fin S4096x1.rank)
  bcast_S4096x1_S4096x16_0_1 : S4096x1.BroadcastsInDim S4096x16 (![0, 1] : Fin 2 → Fin S4096x16.rank)
  reducesTo_S1048576x16_S1048576_d1 : S1048576x16.ReducesTo [1] S1048576
  h_S_ : 0 < S_.numel
  reducesTo_S1048576_S_d0 : S1048576.ReducesTo [0] S_
  slices_S2x16384_S1x16384_0_0 : S2x16384.Slices ![0, 0] S1x16384
  shapeCasts_S1x16384_S16384 : S1x16384.ShapeCasts S16384
  slices_S2x16384_S1x16384_1_0 : S2x16384.Slices ![1, 0] S1x16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384x16_S16384_d1 : S16384x16.ReducesTo [1] S16384
  reducesTo_S16384_S_d0 : S16384.ReducesTo [0] S_
  scatter_S4096_S1048576x1_S1048576_n_0_0_1_wf : ScatterDims.WF S4096 S1048576x1 S1048576 [] [0] [0] 1
  scatter_S4096x16_S1048576x1_S1048576x16_1_0_0_1_wf : ScatterDims.WF S4096x16 S1048576x1 S1048576x16 [1] [0] [0] 1
  gather_S4096x16_S1048576x1_S1048576x16_1_0_n_n_0_1_116_wf : GatherDims.WF S4096x16 S1048576x1 S1048576x16 [1] [0] [] [0] [] 1 ![1, 16]
  gather_S4096_S1048576x1_S1048576_n_0_n_n_0_1_1_wf : GatherDims.WF S4096 S1048576x1 S1048576 [] [0] [] [0] [] 1 ![1]
  gather_S4096x16_S16384x1_S16384x16_1_0_n_n_0_1_116_wf : GatherDims.WF S4096x16 S16384x1 S16384x16 [1] [0] [] [0] [] 1 ![1, 16]

variable [Facts₀]

def scatter_S4096_S1048576x1_S1048576_n_0_0_1 : ScatterDims S4096 S1048576x1 S1048576 where
  updateWindowDims := []
  insertedWindowDims := [0]
  scatterDimsToOperandDims := [0]
  indexVectorDim := 1
  wf := scatter_S4096_S1048576x1_S1048576_n_0_0_1_wf
def scatter_S4096x16_S1048576x1_S1048576x16_1_0_0_1 : ScatterDims S4096x16 S1048576x1 S1048576x16 where
  updateWindowDims := [1]
  insertedWindowDims := [0]
  scatterDimsToOperandDims := [0]
  indexVectorDim := 1
  wf := scatter_S4096x16_S1048576x1_S1048576x16_1_0_0_1_wf
def gather_S4096x16_S1048576x1_S1048576x16_1_0_n_n_0_1_116 : GatherDims S4096x16 S1048576x1 S1048576x16 where
  offsetDims := [1]
  collapsedSliceDims := [0]
  operandBatchingDims := []
  startIndicesBatchingDims := []
  startIndexMap := [0]
  indexVectorDim := 1
  sliceSizes := ![1, 16]
  wf := gather_S4096x16_S1048576x1_S1048576x16_1_0_n_n_0_1_116_wf
def gather_S4096_S1048576x1_S1048576_n_0_n_n_0_1_1 : GatherDims S4096 S1048576x1 S1048576 where
  offsetDims := []
  collapsedSliceDims := [0]
  operandBatchingDims := []
  startIndicesBatchingDims := []
  startIndexMap := [0]
  indexVectorDim := 1
  sliceSizes := ![1]
  wf := gather_S4096_S1048576x1_S1048576_n_0_n_n_0_1_1_wf
def gather_S4096x16_S16384x1_S16384x16_1_0_n_n_0_1_116 : GatherDims S4096x16 S16384x1 S16384x16 where
  offsetDims := [1]
  collapsedSliceDims := [0]
  operandBatchingDims := []
  startIndicesBatchingDims := []
  startIndexMap := [0]
  indexVectorDim := 1
  sliceSizes := ![1, 16]
  wf := gather_S4096x16_S16384x1_S16384x16_1_0_n_n_0_1_116_wf

class Facts : Prop extends Facts₀ where

variable [Facts]
-- ==== Proof.LibFrame.lean ====
import Idealize.ShloMosaic.Lib.Pipeline.FrameBody
import Idealize.ShloMosaic.Lib.Ring

namespace Cert.LibFrame

open Idealize.ShloMosaic Idealize.SL Idealize.SL.RA Idealize.SL.BI
open scoped Idealize.SL.BI
open Idealize.SL.BI.BIBase Idealize.SL.BI.Laws Idealize.SL.ProofMode

variable {nD : Nat} {τ : Topo} {sig : RefSig} {Val : EltTy → Type} [∀ e, Nonempty (Val e)]
variable {Ix : Type} [DecidableEq Ix] {Name : Type} [DecidableEq Name] {U : Type} [URA U] {Lvl : Type}

local notation "𝕄" => MT nD τ sig Ix Val Name U Lvl

/-- Pieces that tile a buffer's shape determine what it reads, whatever it held before. -/
theorem owns_canon (c : Thread nD τ) {sp : Space} {sh : Shape} {e : EltTy} (m : Memref sig c.2.kind sp sh e)
    (q : PosShare TreeShare) (L : List (View.Piece Val sh e)) (size : Fin sh.rank → ℕ) (h : View.Piece.tiledL L size = true) :
    (iprop(∃ f, m.view.loc c ↦[m.view.set]{q} m.view.writes Val f L) : sProp 𝕄) ⊢ owns c m q (View.canon L) := by
  unfold owns; iintro ⟨%f, H⟩; iexists _; isplitr
  · ipureintro; exact View.read_writes_eq_canon _ f L (View.cover_of_tiledL L size h)
  · iexact H

end Cert.LibFrame
-- ==== Proof.BitsStatsShared.lean ====
import proofs.«415856_j56882546868663_3_alg».proof.Proof.Gen.Kernel.Launch
import proofs.«415856_j56882546868663_3_alg».proof.Proof.Gen.Kernel.Skeleton
import proofs.«415856_j56882546868663_3_alg».proof.Proof.Gen.Kernel.Points
import proofs.«415856_j56882546868663_3_alg».proof.Proof.LibFrame
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of array `w` that point `t` reads, at the entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond_0 (i : grid0.Coords) : Prop := (Scalar.cmpi .ne (Scalar.extui (Scalar.cmpi .eq (BitVec.ofNat 32 (i 1).val) 0#32)) 0#32) = 1#1
abbrev cond_1 (i : grid0.Coords) : Prop := k0_cond2 i = 1#1

/-- The two conditions hold exactly at the first and at the last point of a row of 256. -/
theorem hcond_0 : ∀ t : Fin cfg0.N, cond_0 (grid0.coords t) ↔ t.val % 256 = 0 :=
  (by decide +kernel : ∀ t : Fin grid0.N, cond_0 (grid0.coords t) ↔ t.val % 256 = 0)
theorem hcond_1 : ∀ t : Fin cfg0.N, cond_1 (grid0.coords t) ↔ t.val % 256 = 255 :=
  (by decide +kernel : ∀ t : Fin grid0.N, cond_1 (grid0.coords t) ↔ t.val % 256 = 255)

theorem live_in : ∀ t : Fin cfg0.N, cfg0.idle 0 (grid0.coords t) = false ∧ cfg0.idle 1 (grid0.coords t) = false := by decide +kernel
theorem idle_out : ∀ t : Fin cfg0.N, ¬t.val % 256 = 255 → (cfg0.idle 2 (grid0.coords t) = true ∧ (cfg0.win 2).flush t = false) ∧ cfg0.idle 3 (grid0.coords t) = true ∧ (cfg0.win 3).flush t = false := by decide +kernel
theorem live_out : ∀ t : Fin cfg0.N, t.val % 256 = 255 → cfg0.idle 2 (grid0.coords t) = false ∧ cfg0.idle 3 (grid0.coords t) = false := by decide +kernel

abbrev ms_0 (t : Fin cfg0.N) : Memref sig .tc .vmem S16x2048 .f32 := win0_0.stage (cfg0.slots t 0)
abbrev ms_1 (t : Fin cfg0.N) : Memref sig .tc .vmem S1x2048 .i32 := win0_1.stage (cfg0.slots t 1)
abbrev ms_2 (t : Fin cfg0.N) : Memref sig .tc .vmem S1x16x256 .f32 := win0_2.stage (cfg0.slots t 2)
abbrev ms_3 (t : Fin cfg0.N) : Memref sig .tc .vmem S1x256x256 .f32 := win0_3.stage (cfg0.slots t 3)
abbrev scM_0 : Memref sig .tc .vmem S16x256 .f32 := Memref.whole cc0_scratch0
abbrev scM_1 : Memref sig .tc .vmem S256x256 .f32 := Memref.whole cc0_scratch1

/-- The body's six memref arguments, each whole. -/
structure Args where
  a2 : Memref sig .tc .vmem S16x2048 .f32
  h2 : a2.IsWhole
  a3 : Memref sig .tc .vmem S1x2048 .i32
  h3 : a3.IsWhole
  a4 : Memref sig .tc .vmem S1x16x256 .f32
  h4 : a4.IsWhole
  a5 : Memref sig .tc .vmem S1x256x256 .f32
  h5 : a5.IsWhole
  a6 : Memref sig .tc .vmem S16x256 .f32
  h6 : a6.IsWhole
  a7 : Memref sig .tc .vmem S256x256 .f32
  h7 : a7.IsWhole

abbrev argsAt (t : Fin cfg0.N) : Args :=
  ⟨ms_0 t, hstage0_0 ((cfg0.slots t 0).cast nbuf0_0), ms_1 t, hstage0_1 ((cfg0.slots t 1).cast nbuf0_1), ms_2 t, hstage0_2 ((cfg0.slots t 2).cast nbuf0_2), ms_3 t, hstage0_3 ((cfg0.slots t 3).cast nbuf0_3), scM_0, Memref.isWhole_whole _, scM_1, Memref.isWhole_whole _⟩

def restOther (c : Dev nD) : sProp 𝕄 :=
  Pipeline.scopedRestBut (Ix := Unit) (Name := ℕ) (U := UR sig nD τ) (Lvl := ℕ) (Val := Elt F) spec0 c [cc0_scratch0, cc0_scratch1]

theorem PhiA_eq (c : Dev nD) :
    (Pipeline.ΦA spec0 c : sProp 𝕄)
      = iprop(iprop(((∃ d, owns (c : Thread nD τ) scM_0 fullShare d) ∗ (∃ d, owns (c : Thread nD τ) scM_1 fullShare d)) ∗ restOther (F := F) c) ∗ (∃ r, prngReg c r)) := by
  unfold Pipeline.ΦA restOther
  rw [Pipeline.scopedRest_split_of_list spec0 c [cc0_scratch0, cc0_scratch1] (by decide) (by decide)]
  simp only [scM_0, scM_1, owns_whole]; try rfl

end Cert.Kernel.Stats

end
-- ==== Proof.BitsStatsRunA.lean ====
import proofs.«415856_j56882546868663_3_alg».proof.Proof.BitsStatsShared

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def kernelRun_A (c : Dev nD) (i : grid0.Coords) (A : Args) (hc0 : cond_0 i) (hc1 : ¬cond_1 i)
    (x0 : Vec F S16x2048 .f32) (x1 : Vec F S1x2048 .i32) :
    Σ' (LS0 : List (View.Piece (Elt F) S16x256 .f32)), { LS1 : List (View.Piece (Elt F) S256x256 .f32) //
      ∀ (E : Set ℕ) (K : PUnit → sProp 𝕄),
        iprop(owns (c : Thread nD τ) A.a2 fullShare x0 ∗ owns (c : Thread nD τ) A.a3 fullShare x1
            ∗ (∃ d, owns (c : Thread nD τ) A.a6 fullShare d) ∗ (∃ d, owns (c : Thread nD τ) A.a7 fullShare d)
            ∗ (iprop(owns (c : Thread nD τ) A.a2 fullShare x0 ∗ owns (c : Thread nD τ) A.a3 fullShare x1
                ∗ (∃ f, A.a6.view.loc (c : Thread nD τ) ↦[A.a6.view.set]{fullShare} A.a6.view.writes (Elt F) f LS0)
                ∗ (∃ f, A.a7.view.loc (c : Thread nD τ) ↦[A.a7.view.set]{fullShare} A.a7.view.writes (Elt F) f LS1)) -∗ K ⟨⟩))
          ⊢ wp frame (wpE (defs₀ (F := F)) Variants.none c none) E (cc0__stats_kernel i A.a2 A.h2 A.a3 A.h3 A.a4 A.h4 A.a5 A.h5 A.a6 A.h6 A.a7 A.h7) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%ds0, %fs0, -, HS0⟩, ⟨%ds1, %fs1, -, HS1⟩, Hk⟩
    obtain rfl := A.h2.eq_unread hf0; obtain rfl := A.h3.eq_unread hf1
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [HS0]
    · iexists _; iexact HS0
    iexists _; iexact HS1

end Cert.Kernel.Stats

end
-- ==== Proof.BitsStatsRunB.lean ====
import proofs.«415856_j56882546868663_3_alg».proof.Proof.BitsStatsRunA

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def kernelRun_B (c : Dev nD) (i : grid0.Coords) (A : Args) (hc0 : ¬cond_0 i) (hc1 : ¬cond_1 i)
    (x0 : Vec F S16x2048 .f32) (x1 : Vec F S1x2048 .i32) (xs0 : Vec F S16x256 .f32) (xs1 : Vec F S256x256 .f32) :
    Σ' (LS0 : List (View.Piece (Elt F) S16x256 .f32)), { LS1 : List (View.Piece (Elt F) S256x256 .f32) //
      ∀ (E : Set ℕ) (K : PUnit → sProp 𝕄),
        iprop(owns (c : Thread nD τ) A.a2 fullShare x0 ∗ owns (c : Thread nD τ) A.a3 fullShare x1
            ∗ owns (c : Thread nD τ) A.a6 fullShare xs0 ∗ owns (c : Thread nD τ) A.a7 fullShare xs1
            ∗ (iprop(owns (c : Thread nD τ) A.a2 fullShare x0 ∗ owns (c : Thread nD τ) A.a3 fullShare x1
                ∗ (∃ f, A.a6.view.loc (c : Thread nD τ) ↦[A.a6.view.set]{fullShare} A.a6.view.writes (Elt F) f LS0)
                ∗ (∃ f, A.a7.view.loc (c : Thread nD τ) ↦[A.a7.view.set]{fullShare} A.a7.view.writes (Elt F) f LS1)) -∗ K ⟨⟩))
          ⊢ wp frame (wpE (defs₀ (F := F)) Variants.none c none) E (cc0__stats_kernel i A.a2 A.h2 A.a3 A.h3 A.a4 A.h4 A.a5 A.h5 A.a6 A.h6 A.a7 A.h7) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%fs0, %hfs0, HS0⟩, ⟨%fs1, %hfs1, HS1⟩, Hk⟩
    obtain rfl := A.h2.eq_unread hf0; obtain rfl := A.h3.eq_unread hf1
    obtain rfl := A.h6.eq_unread hfs0; obtain rfl := A.h7.eq_unread hfs1
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [HS0]
    · iexists _; iexact HS0
    iexists _; iexact HS1

end Cert.Kernel.Stats

end
-- ==== Proof.BitsStatsRunC.lean ====
import proofs.«415856_j56882546868663_3_alg».proof.Proof.BitsStatsRunB

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def kernelRun_C (c : Dev nD) (i : grid0.Coords) (A : Args) (hc0 : ¬cond_0 i) (hc1 : cond_1 i)
    (x0 : Vec F S16x2048 .f32) (x1 : Vec F S1x2048 .i32) (xs0 : Vec F S16x256 .f32) (xs1 : Vec F S256x256 .f32) :
    Σ' (L2 : List (View.Piece (Elt F) S1x16x256 .f32)) (L3 : List (View.Piece (Elt F) S1x256x256 .f32)) (LS0 : List (View.Piece (Elt F) S16x256 .f32)), { LS1 : List (View.Piece (Elt F) S256x256 .f32) //
      ∀ (E : Set ℕ) (K : PUnit → sProp 𝕄),
        iprop(owns (c : Thread nD τ) A.a2 fullShare x0 ∗ owns (c : Thread nD τ) A.a3 fullShare x1 ∗ (∃ d, owns (c : Thread nD τ) A.a4 fullShare d) ∗ (∃ d, owns (c : Thread nD τ) A.a5 fullShare d)
            ∗ owns (c : Thread nD τ) A.a6 fullShare xs0 ∗ owns (c : Thread nD τ) A.a7 fullShare xs1
            ∗ (iprop(owns (c : Thread nD τ) A.a2 fullShare x0 ∗ owns (c : Thread nD τ) A.a3 fullShare x1
                ∗ (∃ f, A.a4.view.loc (c : Thread nD τ) ↦[A.a4.view.set]{fullShare} A.a4.view.writes (Elt F) f L2)
                ∗ (∃ f, A.a5.view.loc (c : Thread nD τ) ↦[A.a5.view.set]{fullShare} A.a5.view.writes (Elt F) f L3)
                ∗ (∃ f, A.a6.view.loc (c : Thread nD τ) ↦[A.a6.view.set]{fullShare} A.a6.view.writes (Elt F) f LS0)
                ∗ (∃ f, A.a7.view.loc (c : Thread nD τ) ↦[A.a7.view.set]{fullShare} A.a7.view.writes (Elt F) f LS1)) -∗ K ⟨⟩))
          ⊢ wp frame (wpE (defs₀ (F := F)) Variants.none c none) E (cc0__stats_kernel i A.a2 A.h2 A.a3 A.h3 A.a4 A.h4 A.a5 A.h5 A.a6 A.h6 A.a7 A.h7) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := A.h2.eq_unread hf0; obtain rfl := A.h3.eq_unread hf1
    obtain rfl := A.h6.eq_unread hfs0; obtain rfl := A.h7.eq_unread hfs1
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; iexact H2
    isplitl [H3]
    · iexists _; iexact H3
    isplitl [HS0]
    · iexists _; iexact HS0
    iexists _; iexact HS1

end Cert.Kernel.Stats

end
-- ==== Proof.BitsStatsFrame.lean ====
import proofs.«415856_j56882546868663_3_alg».proof.Proof.BitsStatsRunC

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- Pieces that tile a buffer's shape fix what it reads. -/
theorem ownsC {sp : Space} {sh : Shape} {e : EltTy} (m : Memref sig .tc sp sh e) (L : List (View.Piece (Elt F) sh e)) (size : Fin sh.rank → ℕ) (h : View.Piece.tiledL L size = true) :
    (iprop(∃ f, m.view.loc (c : Thread nD τ) ↦[m.view.set]{fullShare} m.view.writes (Elt F) f L) : sProp 𝕄) ⊢ owns (c : Thread nD τ) m fullShare (View.canon L) :=
  Cert.LibFrame.owns_canon (c : Thread nD τ) m fullShare L size h

section At
variable (t : Fin cfg0.N)

/-- The body's three runs at grid point `t`: on the point's two tiles and, away from a row's first point, the accumulators `s`. -/
abbrev runA (h0 : t.val % 256 = 0) (h1 : ¬t.val % 256 = 255) :=
  kernelRun_A c (grid0.coords t) (argsAt t) ((hcond_0 t).mpr h0) (mt (hcond_1 t).mp h1) (iblk V c 0 t) (iblk V c 1 t)
abbrev runB (h0 : ¬t.val % 256 = 0) (h1 : ¬t.val % 256 = 255) (s : Vec F S16x256 .f32 × Vec F S256x256 .f32) :=
  kernelRun_B c (grid0.coords t) (argsAt t) (mt (hcond_0 t).mp h0) (mt (hcond_1 t).mp h1) (iblk V c 0 t) (iblk V c 1 t) s.1 s.2
abbrev runC (h0 : ¬t.val % 256 = 0) (h1 : t.val % 256 = 255) (s : Vec F S16x256 .f32 × Vec F S256x256 .f32) :=
  kernelRun_C c (grid0.coords t) (argsAt t) (mt (hcond_0 t).mp h0) ((hcond_1 t).mpr h1) (iblk V c 0 t) (iblk V c 1 t) s.1 s.2

/-- One point: the two output blocks (placeholders away from a row's last point) and the two accumulators after point `t`, from the accumulators `s` before it. -/
def step (s : Vec F S16x256 .f32 × Vec F S256x256 .f32) : (Vec F S1x16x256 .f32 × Vec F S1x256x256 .f32) × Vec F S16x256 .f32 × Vec F S256x256 .f32 :=
  if h0 : t.val % 256 = 0 then ((View.canon [], View.canon []), View.canon (runA V c t h0 (by omega)).1, View.canon (runA V c t h0 (by omega)).2.1)
  else if h1 : t.val % 256 = 255 then ((View.canon (runC V c t h0 h1 s).1, View.canon (runC V c t h0 h1 s).2.1), View.canon (runC V c t h0 h1 s).2.2.1, View.canon (runC V c t h0 h1 s).2.2.2.1)
  else ((View.canon [], View.canon []), View.canon (runB V c t h0 h1 s).1, View.canon (runB V c t h0 h1 s).2.1)

end At

/-- The accumulators before position `n`: the steps iterated (placeholders before the first point, which does not read them). -/
def accAt : (n : ℕ) → n ≤ cfg0.N → Vec F S16x256 .f32 × Vec F S256x256 .f32
  | 0, _ => (View.canon [], View.canon [])
  | n + 1, hn => (step V c ⟨n, hn⟩ (accAt n (Nat.le_of_succ_le hn))).2

def accOwn (a : Vec F S16x256 .f32 × Vec F S256x256 .f32) : sProp 𝕄 :=
  iprop(iprop((owns (c : Thread nD τ) scM_0 fullShare a.1 ∗ owns (c : Thread nD τ) scM_1 fullShare a.2) ∗ restOther (F := F) c) ∗ (∃ r, prngReg c r))

theorem accOwn_weak (a : Vec F S16x256 .f32 × Vec F S256x256 .f32) : accOwn c a ⊢ Pipeline.ΦA spec0 c := by
  rw [PhiA_eq]; unfold accOwn
  iintro ⟨⟨⟨HS0, HS1⟩, HR⟩, Hg⟩
  iframe HR Hg
  isplitl [HS0] <;> (iexists _; iassumption)

def PhiS : (n : ℕ) → n ≤ cfg0.N → sProp 𝕄
  | 0, _ => Pipeline.ΦA spec0 c
  | n + 1, hn => accOwn c (accAt V c (n + 1) hn)

theorem PhiS_pos (n : ℕ) (h : n ≤ cfg0.N) (hz : n ≠ 0) : PhiS V c n h = accOwn c (accAt V c n h) := by
  cases n with
  | zero => exact absurd rfl hz
  | succ n => rfl

theorem PhiS_weak (n : ℕ) (h : n ≤ cfg0.N) : PhiS V c n h ⊢ Pipeline.ΦA spec0 c := by
  cases n with
  | zero => exact .rfl
  | succ n => exact accOwn_weak c _

def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (step V c t (accAt V c t.val (Nat.le_of_lt t.isLt))).1.1
    | ⟨3, _⟩ => (step V c t (accAt V c t.val (Nat.le_of_lt t.isLt))).1.2
  Φ t := PhiS V c t.val (Nat.le_of_lt_succ t.isLt)
  q _ := fullShare
  owed _ := 0

theorem A_eq (w : Fin cfg0.W) : (dat V c).A w = V c (Pipeline.arrRef spec0 w) := rfl

theorem before_0 (t : Fin cfg0.N) (d) : (dat V c).before 0 t d = iblk V c 0 t :=
  ((dat V c).before_in_eq_fetched 0 rfl (fun _ => rfl) (fun _ _ _ => rfl) (fun _ => rfl) t d).trans rfl
theorem before_1 (t : Fin cfg0.N) (d) : (dat V c).before 1 t d = iblk V c 1 t :=
  ((dat V c).before_in_eq_fetched 1 rfl (fun _ => rfl) (fun _ _ _ => rfl) (fun _ => rfl) t d).trans rfl

theorem body_obligation : BodyObligation (dat (F := F) V c) (defs₀ (F := F)) Variants.none () Set.univ := fun t => by
  rw [bigSep_W0, bigSep_W0]
  show iprop(PhiS V c t.val (Nat.le_of_lt t.isLt) ∗ (dat V c).owesAt () t.castSucc
      ∗ (∃ d, owns (c : Thread nD τ) (ms_0 t) fullShare ((dat V c).before 0 t d)) ∗ (∃ d, owns (c : Thread nD τ) (ms_1 t) fullShare ((dat V c).before 1 t d))
      ∗ (∃ d, owns (c : Thread nD τ) (ms_2 t) fullShare ((dat V c).before 2 t d)) ∗ (∃ d, owns (c : Thread nD τ) (ms_3 t) fullShare ((dat V c).before 3 t d)))
    ⊢ wp frame (wpE (defs₀ (F := F)) Variants.none c none) Set.univ (bodyAt0 t) (fun _ => iprop(accOwn c (step V c t (accAt V c t.val (Nat.le_of_lt t.isLt))).2 ∗ (dat V c).owesAt () t.castSucc
      ∗ (dat V c).leavesExact 0 t ∗ (dat V c).leavesExact 1 t ∗ (dat V c).leavesExact 2 t ∗ (dat V c).leavesExact 3 t))
  unfold bodyAt0
  simp only [before_0, before_1]
  rw [show (dat V c).leavesExact 0 t = owns (c : Thread nD τ) (ms_0 t) fullShare (iblk V c 0 t) from by
      unfold Dat.leavesExact; rw [(live_in t).1] <;> rfl,
    show (dat V c).leavesExact 1 t = owns (c : Thread nD τ) (ms_1 t) fullShare (iblk V c 1 t) from by
      unfold Dat.leavesExact; rw [(live_in t).2] <;> rfl]
  by_cases h1 : t.val % 256 = 255
  · have h0 : ¬t.val % 256 = 0 := by omega
    rw [PhiS_pos V c _ _ (fun h => h0 (by rw [h])),
      show (dat V c).leavesExact 2 t = owns (c : Thread nD τ) (ms_2 t) fullShare (step V c t (accAt V c t.val (Nat.le_of_lt t.isLt))).1.1 from by
        unfold Dat.leavesExact; rw [(live_out t h1).1] <;> rfl,
      show (dat V c).leavesExact 3 t = owns (c : Thread nD τ) (ms_3 t) fullShare (step V c t (accAt V c t.val (Nat.le_of_lt t.isLt))).1.2 from by
        unfold Dat.leavesExact; rw [(live_out t h1).2] <;> rfl]
    unfold accOwn
    generalize accAt V c t.val _ = s
    rw [step, dif_neg h0, dif_pos h1]
    have e0 := ownsC c scM_0 (runC V c t h0 h1 s).2.2.1 S16x256.size (by sl_kernel_rfl)
    have e1 := ownsC c scM_1 (runC V c t h0 h1 s).2.2.2.1 S256x256.size (by sl_kernel_rfl)
    have e2 := ownsC c (ms_2 t) (runC V c t h0 h1 s).1 S1x16x256.size (by sl_kernel_rfl)
    have e3 := ownsC c (ms_3 t) (runC V c t h0 h1 s).2.1 S1x256x256.size (by sl_kernel_rfl)
    iintro ⟨⟨⟨⟨HS0, HS1⟩, HR⟩, Hg⟩, Ho, ⟨%d0, H0⟩, ⟨%d1, H1⟩, ⟨%d2, H2⟩, ⟨%d3, H3⟩⟩
    iapply ((runC V c t h0 h1 s).2.2.2.2 Set.univ _)
    iframe H0 H1 HS0 HS1
    isplitl [H2]; · iexists _; iexact H2
    isplitl [H3]; · iexists _; iexact H3
    iintro ⟨H0, H1, H2, H3, HS0, HS1⟩
    icases e0 $$ HS0 with HS0
    icases e1 $$ HS1 with HS1
    icases e2 $$ H2 with H2
    icases e3 $$ H3 with H3
    iframe
  · rw [Dat.leavesExact_idle _ 2 t (idle_out t h1).1.1 (idle_out t h1).1.2, Dat.leavesExact_idle _ 3 t (idle_out t h1).2.1 (idle_out t h1).2.2]
    by_cases h0 : t.val % 256 = 0
    case' pos =>
      rw [step, dif_pos h0]
      refine (sep_mono_left (PhiS_weak V c _ _)).trans ?_
      rw [PhiA_eq]
      have e0 := ownsC c scM_0 (runA V c t h0 h1).1 S16x256.size (by sl_kernel_rfl)
      have e1 := ownsC c scM_1 (runA V c t h0 h1).2.1 S256x256.size (by sl_kernel_rfl)
      have r := (runA V c t h0 h1).2.2 Set.univ
    case' neg =>
      rw [PhiS_pos V c _ _ (fun h => h0 (by rw [h]))]
      generalize accAt V c t.val _ = s
      rw [step, dif_neg h0, dif_neg h1]
      have e0 := ownsC c scM_0 (runB V c t h0 h1 s).1 S16x256.size (by sl_kernel_rfl)
      have e1 := ownsC c scM_1 (runB V c t h0 h1 s).2.1 S256x256.size (by sl_kernel_rfl)
      have r := (runB V c t h0 h1 s).2.2 Set.univ
    all_goals
      unfold accOwn
      iintro ⟨⟨⟨⟨HS0, HS1⟩, HR⟩, Hg⟩, Ho, ⟨%d0, H0⟩, ⟨%d1, H1⟩, H2, H3⟩
      iapply (r _)
      iframe H0 H1 HS0 HS1
      iintro ⟨H0, H1, HS0, HS1⟩
      icases e0 $$ HS0 with HS0
      icases e1 $$ HS1 with HS1
      iframe

theorem hin : Pipeline.ΦA spec0 c ⊢ (dat V c).Φ 0 := .rfl

theorem hout : (dat V c).Φ (Fin.last cfg0.N) ⊢ Pipeline.ΦA spec0 c := PhiS_weak V c (Fin.last cfg0.N).val _

end Cert.Kernel.Stats

end
-- ==== Proof.BitsIntraShared.lean ====
import proofs.«415856_j56882546868663_3_alg».proof.Proof.Gen.Kernel.Launch
import proofs.«415856_j56882546868663_3_alg».proof.Proof.Gen.Kernel.Skeleton
import proofs.«415856_j56882546868663_3_alg».proof.Proof.Gen.Kernel.Points
import proofs.«415856_j56882546868663_3_alg».proof.Proof.LibFrame
import Idealize.ShloMosaic.Lib.Pipeline.FrameSuffix
import Idealize.ShloMosaic.Lib.Tactic

noncomputable section

namespace Cert.Kernel.Intra

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the arrays the region finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's two conditions pick out the first and the last point of a row of 256. -/
abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 256 = 0 :=
  (by decide +kernel : ∀ t : Fin grid1.N, cond_0 (grid1.coords t) ↔ t.val % 256 = 0)
abbrev cond_1 (i : grid1.Coords) : Prop := k1_cond2 i = 1#1
theorem hcond_1 : ∀ t : Fin cfg1.N, cond_1 (grid1.coords t) ↔ t.val % 256 = 255 :=
  (by decide +kernel : ∀ t : Fin grid1.N, cond_1 (grid1.coords t) ↔ t.val % 256 = 255)

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem idleAt_3 : ∀ t : Fin cfg1.N, ¬t.val % 256 = 255 → cfg1.idle 3 (grid1.coords t) = true ∧ (cfg1.win 3).flush t = false := by decide +kernel
theorem liveAt_3 : ∀ t : Fin cfg1.N, t.val % 256 = 255 → cfg1.idle 3 (grid1.coords t) = false := by decide +kernel

abbrev ms_0 (t : Fin cfg1.N) : Memref sig .tc .vmem S16x2048 .f32 := win1_0.stage (cfg1.slots t 0)
abbrev ms_1 (t : Fin cfg1.N) : Memref sig .tc .vmem S1x2048 .i32 := win1_1.stage (cfg1.slots t 1)
abbrev ms_2 (t : Fin cfg1.N) : Memref sig .tc .vmem S256x256 .f32 := win1_2.stage (cfg1.slots t 2)
abbrev ms_3 (t : Fin cfg1.N) : Memref sig .tc .vmem S1x16x256 .f32 := win1_3.stage (cfg1.slots t 3)
abbrev scM_0 : Memref sig .tc .vmem S16x256 .f32 := Memref.whole cc1_scratch0

/-- The body's five memref arguments, each whole. -/
structure Args where
  a2 : Memref sig .tc .vmem S16x2048 .f32
  h2 : a2.IsWhole
  a3 : Memref sig .tc .vmem S1x2048 .i32
  h3 : a3.IsWhole
  a4 : Memref sig .tc .vmem S256x256 .f32
  h4 : a4.IsWhole
  a5 : Memref sig .tc .vmem S1x16x256 .f32
  h5 : a5.IsWhole
  a6 : Memref sig .tc .vmem S16x256 .f32
  h6 : a6.IsWhole

abbrev argsAt (t : Fin cfg1.N) : Args :=
  ⟨ms_0 t, hstage1_0 ((cfg1.slots t 0).cast nbuf1_0), ms_1 t, hstage1_1 ((cfg1.slots t 1).cast nbuf1_1), ms_2 t, hstage1_2 ((cfg1.slots t 2).cast nbuf1_2), ms_3 t, hstage1_3 ((cfg1.slots t 3).cast nbuf1_3), scM_0, Memref.isWhole_whole _⟩

/-- The region's invariant around a fact `X` about the accumulator: the core's other scoped buffers and the generator register at anything. -/
def inv (c : Dev nD) (X : sProp 𝕄) : sProp 𝕄 :=
  iprop((X ∗ Pipeline.scopedRestBut spec1 c [cc1_scratch0]) ∗ ∃ r, prngReg c r)

theorem PhiA_eq (c : Dev nD) : (Pipeline.ΦA spec1 c : sProp 𝕄) = inv c iprop(∃ d, owns (c : Thread nD τ) scM_0 fullShare d) := by
  unfold Pipeline.ΦA inv
  rw [Pipeline.scopedRest_split_of_list spec1 c [cc1_scratch0] (by decide) (by decide)]
  simp only [bigSepL_singleton, scM_0, owns_whole]; try rfl

/-- The accumulator's fact is taken out of the invariant, and any other can be put in its place. -/
theorem inv_take (c : Dev nD) (X : sProp 𝕄) : inv c X ⊢ iprop(X ∗ ∀ Y, Y -∗ inv c Y) := by
  unfold inv; iintro ⟨⟨HX, HR⟩, Hg⟩; iframe HX; iintro %Y HY; iframe

end Cert.Kernel.Intra

end
-- ==== Proof.BitsIntraRunA.lean ====
import proofs.«415856_j56882546868663_3_alg».proof.Proof.BitsIntraShared

noncomputable section

namespace Cert.Kernel.Intra

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body at a row's first point: the accumulator is zeroed, then the tile's step is stored; the output block is not touched. -/
def kernelRun_A (c : Dev nD) (i : grid1.Coords) (A : Args) (hc0 : cond_0 i) (hc1 : ¬cond_1 i) (x0 : Vec F S16x2048 .f32) (x1 : Vec F S1x2048 .i32) (x2 : Vec F S256x256 .f32) :
    { LS0 : List (View.Piece (Elt F) S16x256 .f32) //
      ∀ (E : Set ℕ) (K : PUnit → sProp 𝕄),
        iprop(owns (c : Thread nD τ) A.a2 fullShare x0 ∗ owns (c : Thread nD τ) A.a3 fullShare x1 ∗ owns (c : Thread nD τ) A.a4 fullShare x2
            ∗ (∃ d, owns (c : Thread nD τ) A.a6 fullShare d)
            ∗ (iprop(owns (c : Thread nD τ) A.a2 fullShare x0 ∗ owns (c : Thread nD τ) A.a3 fullShare x1 ∗ owns (c : Thread nD τ) A.a4 fullShare x2
                ∗ (∃ f, A.a6.view.loc (c : Thread nD τ) ↦[A.a6.view.set]{fullShare} A.a6.view.writes (Elt F) f LS0)) -∗ K ⟨⟩))
          ⊢ wp frame (wpE (defs₀ (F := F)) Variants.none c none) E (cc1__intra_kernel i A.a2 A.h2 A.a3 A.h3 A.a4 A.h4 A.a5 A.h5 A.a6 A.h6) K } := by
  refine ⟨?_, fun E K => ?run⟩
  case run =>
    simp only [cc1__intra_kernel_eq_skeleton]; unfold cc1__intra_kernel_skel
    simp only [k1_part1_eq_skeleton, k1_part2_eq_skeleton]
    unfold owns
    iintro ⟨⟨%f0, %hf0, H0⟩, ⟨%f1, %hf1, H1⟩, ⟨%f2, %hf2, H2⟩, ⟨%ds0, %fs0, -, HS0⟩, Hk⟩
    obtain rfl := A.h2.eq_unread hf0; obtain rfl := A.h3.eq_unread hf1; obtain rfl := A.h4.eq_unread hf2
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; isplitr; · ipureintro; exact A.h4.read_unread _
      iexact H2
    iexists _; iexact HS0

end Cert.Kernel.Intra

end
-- ==== Proof.BitsIntraRunB.lean ====
import proofs.«415856_j56882546868663_3_alg».proof.Proof.BitsIntraRunA

noncomputable section

namespace Cert.Kernel.Intra

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body inside a row: the tile's step over the accumulator `xs0` is stored; the output block is not touched. -/
def kernelRun_B (c : Dev nD) (i : grid1.Coords) (A : Args) (hc0 : ¬cond_0 i) (hc1 : ¬cond_1 i) (x0 : Vec F S16x2048 .f32) (x1 : Vec F S1x2048 .i32) (x2 : Vec F S256x256 .f32) (xs0 : Vec F S16x256 .f32) :
    { LS0 : List (View.Piece (Elt F) S16x256 .f32) //
      ∀ (E : Set ℕ) (K : PUnit → sProp 𝕄),
        iprop(owns (c : Thread nD τ) A.a2 fullShare x0 ∗ owns (c : Thread nD τ) A.a3 fullShare x1 ∗ owns (c : Thread nD τ) A.a4 fullShare x2
            ∗ owns (c : Thread nD τ) A.a6 fullShare xs0
            ∗ (iprop(owns (c : Thread nD τ) A.a2 fullShare x0 ∗ owns (c : Thread nD τ) A.a3 fullShare x1 ∗ owns (c : Thread nD τ) A.a4 fullShare x2
                ∗ (∃ f, A.a6.view.loc (c : Thread nD τ) ↦[A.a6.view.set]{fullShare} A.a6.view.writes (Elt F) f LS0)) -∗ K ⟨⟩))
          ⊢ wp frame (wpE (defs₀ (F := F)) Variants.none c none) E (cc1__intra_kernel i A.a2 A.h2 A.a3 A.h3 A.a4 A.h4 A.a5 A.h5 A.a6 A.h6) K } := by
  refine ⟨?_, fun E K => ?run⟩
  case run =>
    simp only [cc1__intra_kernel_eq_skeleton]; unfold cc1__intra_kernel_skel
    simp only [k1_part1_eq_skeleton, k1_part2_eq_skeleton]
    unfold owns
    iintro ⟨⟨%f0, %hf0, H0⟩, ⟨%f1, %hf1, H1⟩, ⟨%f2, %hf2, H2⟩, ⟨%fs0, %hfs0, HS0⟩, Hk⟩
    obtain rfl := A.h2.eq_unread hf0; obtain rfl := A.h3.eq_unread hf1; obtain rfl := A.h4.eq_unread hf2
    obtain rfl := A.h6.eq_unread hfs0
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; isplitr; · ipureintro; exact A.h4.read_unread _
      iexact H2
    iexists _; iexact HS0

end Cert.Kernel.Intra

end
-- ==== Proof.BitsIntraRunC.lean ====
import proofs.«415856_j56882546868663_3_alg».proof.Proof.BitsIntraRunB

noncomputable section

namespace Cert.Kernel.Intra

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body at a row's last point: the step is stored, and the accumulator's new contents are stored into the output block. -/
def kernelRun_C (c : Dev nD) (i : grid1.Coords) (A : Args) (hc0 : ¬cond_0 i) (hc1 : cond_1 i) (x0 : Vec F S16x2048 .f32) (x1 : Vec F S1x2048 .i32) (x2 : Vec F S256x256 .f32) (xs0 : Vec F S16x256 .f32) :
    Σ' (L3 : List (View.Piece (Elt F) S1x16x256 .f32)), { LS0 : List (View.Piece (Elt F) S16x256 .f32) //
      ∀ (E : Set ℕ) (K : PUnit → sProp 𝕄),
        iprop(owns (c : Thread nD τ) A.a2 fullShare x0 ∗ owns (c : Thread nD τ) A.a3 fullShare x1 ∗ owns (c : Thread nD τ) A.a4 fullShare x2 ∗ (∃ d, owns (c : Thread nD τ) A.a5 fullShare d)
            ∗ owns (c : Thread nD τ) A.a6 fullShare xs0
            ∗ (iprop(owns (c : Thread nD τ) A.a2 fullShare x0 ∗ owns (c : Thread nD τ) A.a3 fullShare x1 ∗ owns (c : Thread nD τ) A.a4 fullShare x2
                ∗ (∃ f, A.a5.view.loc (c : Thread nD τ) ↦[A.a5.view.set]{fullShare} A.a5.view.writes (Elt F) f L3)
                ∗ (∃ f, A.a6.view.loc (c : Thread nD τ) ↦[A.a6.view.set]{fullShare} A.a6.view.writes (Elt F) f LS0)) -∗ K ⟨⟩))
          ⊢ wp frame (wpE (defs₀ (F := F)) Variants.none c none) E (cc1__intra_kernel i A.a2 A.h2 A.a3 A.h3 A.a4 A.h4 A.a5 A.h5 A.a6 A.h6) K } := by
  refine ⟨?_, ?_, fun E K => ?run⟩
  case run =>
    simp only [cc1__intra_kernel_eq_skeleton]; unfold cc1__intra_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := A.h2.eq_unread hf0; obtain rfl := A.h3.eq_unread hf1; obtain rfl := A.h4.eq_unread hf2
    obtain rfl := A.h6.eq_unread hfs0
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; isplitr; · ipureintro; exact A.h4.read_unread _
      iexact H2
    isplitl [H3]
    · iexists _; iexact H3
    iexists _; iexact HS0

end Cert.Kernel.Intra

end
-- ==== Proof.BitsIntraFrame.lean ====
import proofs.«415856_j56882546868663_3_alg».proof.Proof.BitsIntraRunC

noncomputable section

namespace Cert.Kernel.Intra

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The three runs at grid point `t`, over the blocks the windows read there. -/
def runA (t : Fin cfg1.N) (h0 : t.val % 256 = 0) :=
  kernelRun_A c (grid1.coords t) (argsAt t) ((hcond_0 t).mpr h0) (fun h => by have := (hcond_1 t).mp h; omega) (iblk V c 0 t) (iblk V c 1 t) (iblk V c 2 t)
def runB (t : Fin cfg1.N) (h0 : ¬t.val % 256 = 0) (h1 : ¬t.val % 256 = 255) (a : Vec F S16x256 .f32) :=
  kernelRun_B c (grid1.coords t) (argsAt t) (mt (hcond_0 t).mp h0) (mt (hcond_1 t).mp h1) (iblk V c 0 t) (iblk V c 1 t) (iblk V c 2 t) a
def runC (t : Fin cfg1.N) (h1 : t.val % 256 = 255) (a : Vec F S16x256 .f32) :=
  kernelRun_C c (grid1.coords t) (argsAt t) (fun h => by have := (hcond_0 t).mp h; omega) ((hcond_1 t).mpr h1) (iblk V c 0 t) (iblk V c 1 t) (iblk V c 2 t) a

/-- What point `t` leaves in the output block (nothing said away from a row's last point) and in the accumulator, over the accumulator `a` it finds. -/
def stepAt (t : Fin cfg1.N) (a : Vec F S16x256 .f32) : Vec F S1x16x256 .f32 × Vec F S16x256 .f32 :=
  if h0 : t.val % 256 = 0 then (View.canon [], View.canon (runA V c t h0).1)
  else if h1 : t.val % 256 = 255 then (View.canon (runC V c t h1 a).1, View.canon (runC V c t h1 a).2.1)
  else (View.canon [], View.canon (runB V c t h0 h1 a).1)

/-- The accumulator before point `n`. -/
def accAt : ℕ → Vec F S16x256 .f32
  | 0 => View.canon []
  | n + 1 => if h : n < cfg1.N then (stepAt V c ⟨n, h⟩ (accAt n)).2 else View.canon []

theorem accAt_succ (t : Fin cfg1.N) : accAt V c (t.val + 1) = (stepAt V c t (accAt V c t.val)).2 := dif_pos t.isLt

/-- The invariant before point `n`: the region's entry form at the first point, afterwards with the accumulator at `accAt n`. -/
def Phi (n : ℕ) : sProp 𝕄 :=
  if n = 0 then Pipeline.ΦA spec1 c else inv c (owns (c : Thread nD τ) scM_0 fullShare (accAt V c n))

/-- At any point the invariant gives the accumulator at some contents. -/
theorem Phi_entry (n : ℕ) : Phi V c n ⊢ inv c iprop(∃ d, owns (c : Thread nD τ) scM_0 fullShare d) := by
  unfold Phi; split
  · rw [PhiA_eq]
  · refine (inv_take c _).trans ?_; iintro ⟨HS, Hc⟩; iapply Hc; iexists _; iexact HS

def dat : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stepAt V c t (accAt V c t.val)).1
  Φ t := Phi V c t.val
  q _ := fullShare
  owed _ := 0

theorem A_eq (w : Fin cfg1.W) : (dat V c).A w = V c (Pipeline.arrRef spec1 w) := rfl

theorem before_0 (t : Fin cfg1.N) (d) : (dat V c).before 0 t d = iblk V c 0 t :=
  ((dat V c).before_in_eq_fetched 0 rfl (fun _ => rfl) (fun _ _ _ => rfl) (fun _ => rfl) t d).trans rfl
theorem before_1 (t : Fin cfg1.N) (d) : (dat V c).before 1 t d = iblk V c 1 t :=
  ((dat V c).before_in_eq_fetched 1 rfl (fun _ => rfl) (fun _ _ _ => rfl) (fun _ => rfl) t d).trans rfl
theorem before_2 (t : Fin cfg1.N) (d) : (dat V c).before 2 t d = iblk V c 2 t :=
  ((dat V c).before_in_eq_fetched 2 rfl (fun _ => rfl) (fun _ _ _ => rfl) (fun _ => rfl) t d).trans rfl

/-- The body at any point: the invariant hands it the accumulator and takes it back at what the point's run leaves. -/
theorem sound_body (t : Fin cfg1.N) :
    iprop((dat V c).Φ t.castSucc ∗ (dat V c).owesAt () t.castSucc
      ∗ (∃ d, owns (c : Thread nD τ) (ms_0 t) fullShare ((dat V c).before 0 t d))
      ∗ (∃ d, owns (c : Thread nD τ) (ms_1 t) fullShare ((dat V c).before 1 t d))
      ∗ (∃ d, owns (c : Thread nD τ) (ms_2 t) fullShare ((dat V c).before 2 t d))
      ∗ (∃ d, owns (c : Thread nD τ) (ms_3 t) fullShare ((dat V c).before 3 t d)))
      ⊢ wp frame (wpE (defs₀ (F := F)) Variants.none c none) Set.univ (bodyAt1 t) (fun _ =>
        iprop((dat V c).Φ t.succ ∗ (dat V c).owesAt () t.succ
          ∗ (dat V c).leavesExact 0 t ∗ (dat V c).leavesExact 1 t ∗ (dat V c).leavesExact 2 t ∗ (dat V c).leavesExact 3 t)) := by
  unfold bodyAt1
  simp only [before_0, before_1, before_2]
  rw [show (dat V c).owesAt () t.succ = (dat V c).owesAt () t.castSucc from rfl,
    show (dat V c).Φ t.succ = Phi V c (t.val + 1) from rfl, Phi, if_neg (Nat.succ_ne_zero _), accAt_succ,
    show (dat V c).Φ t.castSucc = Phi V c t.val from rfl,
    show (dat V c).leavesExact 0 t = owns (c : Thread nD τ) (ms_0 t) fullShare (iblk V c 0 t) from by
      unfold Dat.leavesExact; rw [liveAt_0 t]; rfl,
    show (dat V c).leavesExact 1 t = owns (c : Thread nD τ) (ms_1 t) fullShare (iblk V c 1 t) from by
      unfold Dat.leavesExact; rw [liveAt_1 t]; rfl,
    show (dat V c).leavesExact 2 t = owns (c : Thread nD τ) (ms_2 t) fullShare (iblk V c 2 t) from by
      unfold Dat.leavesExact; rw [liveAt_2 t]; rfl]
  by_cases h0 : t.val % 256 = 0
  · have h1 : ¬t.val % 256 = 255 := by omega
    rw [Dat.leavesExact_idle _ 3 t (idleAt_3 t h1).1 (idleAt_3 t h1).2, stepAt, dif_pos h0]
    refine (sep_mono_left ((Phi_entry V c _).trans (inv_take c _))).trans ?_
    have r := (runA V c t h0).2 Set.univ
    iintro ⟨⟨HS, Hc⟩, Ho, ⟨%d0, H0⟩, ⟨%d1, H1⟩, ⟨%d2, H2⟩, ⟨%d3, H3⟩⟩
    iapply (r _)
    iframe H0 H1 H2 HS
    iintro ⟨H0, H1, H2, HS⟩
    isplitl [Hc HS]
    · iapply Hc; iapply Cert.LibFrame.owns_canon _ _ _ _ S16x256.size (by sl_kernel_rfl); iexact HS
    iframe Ho H0 H1 H2; iexists _; iexact H3
  · have hz : ¬t.val = 0 := fun h => h0 (by rw [h])
    by_cases h1 : t.val % 256 = 255
    · rw [Phi, if_neg hz, show (dat V c).leavesExact 3 t = owns (c : Thread nD τ) (ms_3 t) fullShare (stepAt V c t (accAt V c t.val)).1 from by
        unfold Dat.leavesExact; rw [liveAt_3 t h1]; rfl, stepAt, dif_neg h0, dif_pos h1]
      generalize accAt V c t.val = a
      have r := (runC V c t h1 a).2.2 Set.univ
      refine (sep_mono_left (inv_take c _)).trans ?_
      iintro ⟨⟨HS, Hc⟩, Ho, ⟨%d0, H0⟩, ⟨%d1, H1⟩, ⟨%d2, H2⟩, ⟨%d3, H3⟩⟩
      iapply (r _)
      iframe H0 H1 H2 HS
      isplitl [H3]; · iexists _; iexact H3
      iintro ⟨H0, H1, H2, H3, HS⟩
      isplitl [Hc HS]
      · iapply Hc; iapply Cert.LibFrame.owns_canon _ _ _ _ S16x256.size (by sl_kernel_rfl); iexact HS
      iframe Ho H0 H1 H2
      iapply Cert.LibFrame.owns_canon _ _ _ _ S1x16x256.size (by sl_kernel_rfl); iexact H3
    · rw [Phi, if_neg hz, Dat.leavesExact_idle _ 3 t (idleAt_3 t h1).1 (idleAt_3 t h1).2, stepAt, dif_neg h0, dif_neg h1]
      generalize accAt V c t.val = a
      have r := (runB V c t h0 h1 a).2 Set.univ
      refine (sep_mono_left (inv_take c _)).trans ?_
      iintro ⟨⟨HS, Hc⟩, Ho, ⟨%d0, H0⟩, ⟨%d1, H1⟩, ⟨%d2, H2⟩, ⟨%d3, H3⟩⟩
      iapply (r _)
      iframe H0 H1 H2 HS
      iintro ⟨H0, H1, H2, HS⟩
      isplitl [Hc HS]
      · iapply Hc; iapply Cert.LibFrame.owns_canon _ _ _ _ S16x256.size (by sl_kernel_rfl); iexact HS
      iframe Ho H0 H1 H2; iexists _; iexact H3

theorem body_obligation : BodyObligation (dat (F := F) V c) (defs₀ (F := F)) Variants.none () Set.univ := fun t => by
  rw [bigSep_W1, bigSep_W1]
  exact sound_body V c t

theorem hin : Pipeline.ΦA spec1 c ⊢ (dat V c).Φ 0 := by
  rw [show (dat V c).Φ 0 = Phi V c 0 from rfl, Phi, if_pos rfl]

theorem hout : (dat V c).Φ (Fin.last cfg1.N) ⊢ Pipeline.ΦA spec1 c := by
  rw [PhiA_eq]; exact Phi_entry V c (cfg1.N)

end Cert.Kernel.Intra

end
-- ==== Proof.StatsShared.lean ====
import proofs.«415856_j56882546868663_3_alg».proof.Proof.Gen.KernelIdeal.Launch
import proofs.«415856_j56882546868663_3_alg».proof.Proof.Gen.KernelIdeal.Skeleton
import proofs.«415856_j56882546868663_3_alg».proof.Proof.Gen.KernelIdeal.Points
import proofs.«415856_j56882546868663_3_alg».proof.Proof.LibFrame
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of array `w` that point `t` reads, at the entry contents `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond_0 (i : grid0.Coords) : Prop := (Scalar.cmpi .ne (Scalar.extui (Scalar.cmpi .eq (BitVec.ofNat 32 (i 1).val) 0#32)) 0#32) = 1#1
abbrev cond_1 (i : grid0.Coords) : Prop := k0_cond2 i = 1#1

/-- The two conditions hold exactly at the first and at the last point of a row of 256. -/
theorem hcond_0 : ∀ t : Fin cfg0.N, cond_0 (grid0.coords t) ↔ t.val % 256 = 0 :=
  (by decide +kernel : ∀ t : Fin grid0.N, cond_0 (grid0.coords t) ↔ t.val % 256 = 0)
theorem hcond_1 : ∀ t : Fin cfg0.N, cond_1 (grid0.coords t) ↔ t.val % 256 = 255 :=
  (by decide +kernel : ∀ t : Fin grid0.N, cond_1 (grid0.coords t) ↔ t.val % 256 = 255)

theorem live_in : ∀ t : Fin cfg0.N, cfg0.idle 0 (grid0.coords t) = false ∧ cfg0.idle 1 (grid0.coords t) = false := by decide +kernel
theorem idle_out : ∀ t : Fin cfg0.N, ¬t.val % 256 = 255 → (cfg0.idle 2 (grid0.coords t) = true ∧ (cfg0.win 2).flush t = false) ∧ cfg0.idle 3 (grid0.coords t) = true ∧ (cfg0.win 3).flush t = false := by decide +kernel
theorem live_out : ∀ t : Fin cfg0.N, t.val % 256 = 255 → cfg0.idle 2 (grid0.coords t) = false ∧ cfg0.idle 3 (grid0.coords t) = false := by decide +kernel

abbrev ms_0 (t : Fin cfg0.N) : Memref sig .tc .vmem S16x2048 .f32 := win0_0.stage (cfg0.slots t 0)
abbrev ms_1 (t : Fin cfg0.N) : Memref sig .tc .vmem S1x2048 .i32 := win0_1.stage (cfg0.slots t 1)
abbrev ms_2 (t : Fin cfg0.N) : Memref sig .tc .vmem S1x16x256 .f32 := win0_2.stage (cfg0.slots t 2)
abbrev ms_3 (t : Fin cfg0.N) : Memref sig .tc .vmem S1x256x256 .f32 := win0_3.stage (cfg0.slots t 3)
abbrev scM_0 : Memref sig .tc .vmem S16x256 .f32 := Memref.whole cc0_scratch0
abbrev scM_1 : Memref sig .tc .vmem S256x256 .f32 := Memref.whole cc0_scratch1

/-- The body's six memref arguments, each whole. -/
structure Args where
  a2 : Memref sig .tc .vmem S16x2048 .f32
  h2 : a2.IsWhole
  a3 : Memref sig .tc .vmem S1x2048 .i32
  h3 : a3.IsWhole
  a4 : Memref sig .tc .vmem S1x16x256 .f32
  h4 : a4.IsWhole
  a5 : Memref sig .tc .vmem S1x256x256 .f32
  h5 : a5.IsWhole
  a6 : Memref sig .tc .vmem S16x256 .f32
  h6 : a6.IsWhole
  a7 : Memref sig .tc .vmem S256x256 .f32
  h7 : a7.IsWhole

abbrev argsAt (t : Fin cfg0.N) : Args :=
  ⟨ms_0 t, hstage0_0 ((cfg0.slots t 0).cast nbuf0_0), ms_1 t, hstage0_1 ((cfg0.slots t 1).cast nbuf0_1), ms_2 t, hstage0_2 ((cfg0.slots t 2).cast nbuf0_2), ms_3 t, hstage0_3 ((cfg0.slots t 3).cast nbuf0_3), scM_0, Memref.isWhole_whole _, scM_1, Memref.isWhole_whole _⟩

def restOther (c : Dev nD) : sProp 𝕄 :=
  Pipeline.scopedRestBut (Ix := Unit) (Name := ℕ) (U := UR sig nD τ) (Lvl := ℕ) (Val := Elt F) spec0 c [cc0_scratch0, cc0_scratch1]

theorem PhiA_eq (c : Dev nD) :
    (Pipeline.ΦA spec0 c : sProp 𝕄)
      = iprop(iprop(((∃ d, owns (c : Thread nD τ) scM_0 fullShare d) ∗ (∃ d, owns (c : Thread nD τ) scM_1 fullShare d)) ∗ restOther (F := F) c) ∗ (∃ r, prngReg c r)) := by
  unfold Pipeline.ΦA restOther
  rw [Pipeline.scopedRest_split_of_list spec0 c [cc0_scratch0, cc0_scratch1] (by decide) (by decide)]
  simp only [scM_0, scM_1, owns_whole]; try rfl

end Cert.KernelIdeal.Stats

end
-- ==== Proof.StatsRunA.lean ====
import proofs.«415856_j56882546868663_3_alg».proof.Proof.StatsShared

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def kernelRun_A (c : Dev nD) (i : grid0.Coords) (A : Args) (hc0 : cond_0 i) (hc1 : ¬cond_1 i)
    (x0 : Vec F S16x2048 .f32) (x1 : Vec F S1x2048 .i32) :
    Σ' (LS0 : List (View.Piece (Elt F) S16x256 .f32)), { LS1 : List (View.Piece (Elt F) S256x256 .f32) //
      ∀ (E : Set ℕ) (K : PUnit → sProp 𝕄),
        iprop(owns (c : Thread nD τ) A.a2 fullShare x0 ∗ owns (c : Thread nD τ) A.a3 fullShare x1
            ∗ (∃ d, owns (c : Thread nD τ) A.a6 fullShare d) ∗ (∃ d, owns (c : Thread nD τ) A.a7 fullShare d)
            ∗ (iprop(owns (c : Thread nD τ) A.a2 fullShare x0 ∗ owns (c : Thread nD τ) A.a3 fullShare x1
                ∗ (∃ f, A.a6.view.loc (c : Thread nD τ) ↦[A.a6.view.set]{fullShare} A.a6.view.writes (Elt F) f LS0)
                ∗ (∃ f, A.a7.view.loc (c : Thread nD τ) ↦[A.a7.view.set]{fullShare} A.a7.view.writes (Elt F) f LS1)) -∗ K ⟨⟩))
          ⊢ wp frame (wpE (defs₀ (F := F)) Variants.none c none) E (cc0__stats_kernel i A.a2 A.h2 A.a3 A.h3 A.a4 A.h4 A.a5 A.h5 A.a6 A.h6 A.a7 A.h7) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%ds0, %fs0, -, HS0⟩, ⟨%ds1, %fs1, -, HS1⟩, Hk⟩
    obtain rfl := A.h2.eq_unread hf0; obtain rfl := A.h3.eq_unread hf1
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [HS0]
    · iexists _; iexact HS0
    iexists _; iexact HS1

end Cert.KernelIdeal.Stats

end
-- ==== Proof.StatsRunB.lean ====
import proofs.«415856_j56882546868663_3_alg».proof.Proof.StatsRunA

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def kernelRun_B (c : Dev nD) (i : grid0.Coords) (A : Args) (hc0 : ¬cond_0 i) (hc1 : ¬cond_1 i)
    (x0 : Vec F S16x2048 .f32) (x1 : Vec F S1x2048 .i32) (xs0 : Vec F S16x256 .f32) (xs1 : Vec F S256x256 .f32) :
    Σ' (LS0 : List (View.Piece (Elt F) S16x256 .f32)), { LS1 : List (View.Piece (Elt F) S256x256 .f32) //
      ∀ (E : Set ℕ) (K : PUnit → sProp 𝕄),
        iprop(owns (c : Thread nD τ) A.a2 fullShare x0 ∗ owns (c : Thread nD τ) A.a3 fullShare x1
            ∗ owns (c : Thread nD τ) A.a6 fullShare xs0 ∗ owns (c : Thread nD τ) A.a7 fullShare xs1
            ∗ (iprop(owns (c : Thread nD τ) A.a2 fullShare x0 ∗ owns (c : Thread nD τ) A.a3 fullShare x1
                ∗ (∃ f, A.a6.view.loc (c : Thread nD τ) ↦[A.a6.view.set]{fullShare} A.a6.view.writes (Elt F) f LS0)
                ∗ (∃ f, A.a7.view.loc (c : Thread nD τ) ↦[A.a7.view.set]{fullShare} A.a7.view.writes (Elt F) f LS1)) -∗ K ⟨⟩))
          ⊢ wp frame (wpE (defs₀ (F := F)) Variants.none c none) E (cc0__stats_kernel i A.a2 A.h2 A.a3 A.h3 A.a4 A.h4 A.a5 A.h5 A.a6 A.h6 A.a7 A.h7) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%fs0, %hfs0, HS0⟩, ⟨%fs1, %hfs1, HS1⟩, Hk⟩
    obtain rfl := A.h2.eq_unread hf0; obtain rfl := A.h3.eq_unread hf1
    obtain rfl := A.h6.eq_unread hfs0; obtain rfl := A.h7.eq_unread hfs1
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [HS0]
    · iexists _; iexact HS0
    iexists _; iexact HS1

end Cert.KernelIdeal.Stats

end
-- ==== Proof.StatsRunC.lean ====
import proofs.«415856_j56882546868663_3_alg».proof.Proof.StatsRunB

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def kernelRun_C (c : Dev nD) (i : grid0.Coords) (A : Args) (hc0 : ¬cond_0 i) (hc1 : cond_1 i)
    (x0 : Vec F S16x2048 .f32) (x1 : Vec F S1x2048 .i32) (xs0 : Vec F S16x256 .f32) (xs1 : Vec F S256x256 .f32) :
    Σ' (L2 : List (View.Piece (Elt F) S1x16x256 .f32)) (L3 : List (View.Piece (Elt F) S1x256x256 .f32)) (LS0 : List (View.Piece (Elt F) S16x256 .f32)), { LS1 : List (View.Piece (Elt F) S256x256 .f32) //
      ∀ (E : Set ℕ) (K : PUnit → sProp 𝕄),
        iprop(owns (c : Thread nD τ) A.a2 fullShare x0 ∗ owns (c : Thread nD τ) A.a3 fullShare x1 ∗ (∃ d, owns (c : Thread nD τ) A.a4 fullShare d) ∗ (∃ d, owns (c : Thread nD τ) A.a5 fullShare d)
            ∗ owns (c : Thread nD τ) A.a6 fullShare xs0 ∗ owns (c : Thread nD τ) A.a7 fullShare xs1
            ∗ (iprop(owns (c : Thread nD τ) A.a2 fullShare x0 ∗ owns (c : Thread nD τ) A.a3 fullShare x1
                ∗ (∃ f, A.a4.view.loc (c : Thread nD τ) ↦[A.a4.view.set]{fullShare} A.a4.view.writes (Elt F) f L2)
                ∗ (∃ f, A.a5.view.loc (c : Thread nD τ) ↦[A.a5.view.set]{fullShare} A.a5.view.writes (Elt F) f L3)
                ∗ (∃ f, A.a6.view.loc (c : Thread nD τ) ↦[A.a6.view.set]{fullShare} A.a6.view.writes (Elt F) f LS0)
                ∗ (∃ f, A.a7.view.loc (c : Thread nD τ) ↦[A.a7.view.set]{fullShare} A.a7.view.writes (Elt F) f LS1)) -∗ K ⟨⟩))
          ⊢ wp frame (wpE (defs₀ (F := F)) Variants.none c none) E (cc0__stats_kernel i A.a2 A.h2 A.a3 A.h3 A.a4 A.h4 A.a5 A.h5 A.a6 A.h6 A.a7 A.h7) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := A.h2.eq_unread hf0; obtain rfl := A.h3.eq_unread hf1
    obtain rfl := A.h6.eq_unread hfs0; obtain rfl := A.h7.eq_unread hfs1
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; iexact H2
    isplitl [H3]
    · iexists _; iexact H3
    isplitl [HS0]
    · iexists _; iexact HS0
    iexists _; iexact HS1

end Cert.KernelIdeal.Stats

end
-- ==== Proof.StatsFrame.lean ====
import proofs.«415856_j56882546868663_3_alg».proof.Proof.StatsRunC

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- Pieces that tile a buffer's shape fix what it reads. -/
theorem ownsC {sp : Space} {sh : Shape} {e : EltTy} (m : Memref sig .tc sp sh e) (L : List (View.Piece (Elt F) sh e)) (size : Fin sh.rank → ℕ) (h : View.Piece.tiledL L size = true) :
    (iprop(∃ f, m.view.loc (c : Thread nD τ) ↦[m.view.set]{fullShare} m.view.writes (Elt F) f L) : sProp 𝕄) ⊢ owns (c : Thread nD τ) m fullShare (View.canon L) :=
  Cert.LibFrame.owns_canon (c : Thread nD τ) m fullShare L size h

section At
variable (t : Fin cfg0.N)

/-- The body's three runs at grid point `t`: on the point's two tiles and, away from a row's first point, the accumulators `s`. -/
abbrev runA (h0 : t.val % 256 = 0) (h1 : ¬t.val % 256 = 255) :=
  kernelRun_A c (grid0.coords t) (argsAt t) ((hcond_0 t).mpr h0) (mt (hcond_1 t).mp h1) (iblk V c 0 t) (iblk V c 1 t)
abbrev runB (h0 : ¬t.val % 256 = 0) (h1 : ¬t.val % 256 = 255) (s : Vec F S16x256 .f32 × Vec F S256x256 .f32) :=
  kernelRun_B c (grid0.coords t) (argsAt t) (mt (hcond_0 t).mp h0) (mt (hcond_1 t).mp h1) (iblk V c 0 t) (iblk V c 1 t) s.1 s.2
abbrev runC (h0 : ¬t.val % 256 = 0) (h1 : t.val % 256 = 255) (s : Vec F S16x256 .f32 × Vec F S256x256 .f32) :=
  kernelRun_C c (grid0.coords t) (argsAt t) (mt (hcond_0 t).mp h0) ((hcond_1 t).mpr h1) (iblk V c 0 t) (iblk V c 1 t) s.1 s.2

/-- One point: the two output blocks (placeholders away from a row's last point) and the two accumulators after point `t`, from the accumulators `s` before it. -/
def step (s : Vec F S16x256 .f32 × Vec F S256x256 .f32) : (Vec F S1x16x256 .f32 × Vec F S1x256x256 .f32) × Vec F S16x256 .f32 × Vec F S256x256 .f32 :=
  if h0 : t.val % 256 = 0 then ((View.canon [], View.canon []), View.canon (runA V c t h0 (by omega)).1, View.canon (runA V c t h0 (by omega)).2.1)
  else if h1 : t.val % 256 = 255 then ((View.canon (runC V c t h0 h1 s).1, View.canon (runC V c t h0 h1 s).2.1), View.canon (runC V c t h0 h1 s).2.2.1, View.canon (runC V c t h0 h1 s).2.2.2.1)
  else ((View.canon [], View.canon []), View.canon (runB V c t h0 h1 s).1, View.canon (runB V c t h0 h1 s).2.1)

end At

/-- The accumulators before position `n`: the steps iterated (placeholders before the first point, which does not read them). -/
def accAt : (n : ℕ) → n ≤ cfg0.N → Vec F S16x256 .f32 × Vec F S256x256 .f32
  | 0, _ => (View.canon [], View.canon [])
  | n + 1, hn => (step V c ⟨n, hn⟩ (accAt n (Nat.le_of_succ_le hn))).2

def accOwn (a : Vec F S16x256 .f32 × Vec F S256x256 .f32) : sProp 𝕄 :=
  iprop(iprop((owns (c : Thread nD τ) scM_0 fullShare a.1 ∗ owns (c : Thread nD τ) scM_1 fullShare a.2) ∗ restOther (F := F) c) ∗ (∃ r, prngReg c r))

theorem accOwn_weak (a : Vec F S16x256 .f32 × Vec F S256x256 .f32) : accOwn c a ⊢ Pipeline.ΦA spec0 c := by
  rw [PhiA_eq]; unfold accOwn
  iintro ⟨⟨⟨HS0, HS1⟩, HR⟩, Hg⟩
  iframe HR Hg
  isplitl [HS0] <;> (iexists _; iassumption)

def PhiS : (n : ℕ) → n ≤ cfg0.N → sProp 𝕄
  | 0, _ => Pipeline.ΦA spec0 c
  | n + 1, hn => accOwn c (accAt V c (n + 1) hn)

theorem PhiS_pos (n : ℕ) (h : n ≤ cfg0.N) (hz : n ≠ 0) : PhiS V c n h = accOwn c (accAt V c n h) := by
  cases n with
  | zero => exact absurd rfl hz
  | succ n => rfl

theorem PhiS_weak (n : ℕ) (h : n ≤ cfg0.N) : PhiS V c n h ⊢ Pipeline.ΦA spec0 c := by
  cases n with
  | zero => exact .rfl
  | succ n => exact accOwn_weak c _

def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (step V c t (accAt V c t.val (Nat.le_of_lt t.isLt))).1.1
    | ⟨3, _⟩ => (step V c t (accAt V c t.val (Nat.le_of_lt t.isLt))).1.2
  Φ t := PhiS V c t.val (Nat.le_of_lt_succ t.isLt)
  q _ := fullShare
  owed _ := 0

theorem A_eq (w : Fin cfg0.W) : (dat V c).A w = V c (Pipeline.arrRef spec0 w) := rfl

theorem before_0 (t : Fin cfg0.N) (d) : (dat V c).before 0 t d = iblk V c 0 t :=
  ((dat V c).before_in_eq_fetched 0 rfl (fun _ => rfl) (fun _ _ _ => rfl) (fun _ => rfl) t d).trans rfl
theorem before_1 (t : Fin cfg0.N) (d) : (dat V c).before 1 t d = iblk V c 1 t :=
  ((dat V c).before_in_eq_fetched 1 rfl (fun _ => rfl) (fun _ _ _ => rfl) (fun _ => rfl) t d).trans rfl

theorem body_obligation : BodyObligation (dat (F := F) V c) (defs₀ (F := F)) Variants.none () Set.univ := fun t => by
  rw [bigSep_W0, bigSep_W0]
  show iprop(PhiS V c t.val (Nat.le_of_lt t.isLt) ∗ (dat V c).owesAt () t.castSucc
      ∗ (∃ d, owns (c : Thread nD τ) (ms_0 t) fullShare ((dat V c).before 0 t d)) ∗ (∃ d, owns (c : Thread nD τ) (ms_1 t) fullShare ((dat V c).before 1 t d))
      ∗ (∃ d, owns (c : Thread nD τ) (ms_2 t) fullShare ((dat V c).before 2 t d)) ∗ (∃ d, owns (c : Thread nD τ) (ms_3 t) fullShare ((dat V c).before 3 t d)))
    ⊢ wp frame (wpE (defs₀ (F := F)) Variants.none c none) Set.univ (bodyAt0 t) (fun _ => iprop(accOwn c (step V c t (accAt V c t.val (Nat.le_of_lt t.isLt))).2 ∗ (dat V c).owesAt () t.castSucc
      ∗ (dat V c).leavesExact 0 t ∗ (dat V c).leavesExact 1 t ∗ (dat V c).leavesExact 2 t ∗ (dat V c).leavesExact 3 t))
  unfold bodyAt0
  simp only [before_0, before_1]
  rw [show (dat V c).leavesExact 0 t = owns (c : Thread nD τ) (ms_0 t) fullShare (iblk V c 0 t) from by
      unfold Dat.leavesExact; rw [(live_in t).1] <;> rfl,
    show (dat V c).leavesExact 1 t = owns (c : Thread nD τ) (ms_1 t) fullShare (iblk V c 1 t) from by
      unfold Dat.leavesExact; rw [(live_in t).2] <;> rfl]
  by_cases h1 : t.val % 256 = 255
  · have h0 : ¬t.val % 256 = 0 := by omega
    rw [PhiS_pos V c _ _ (fun h => h0 (by rw [h])),
      show (dat V c).leavesExact 2 t = owns (c : Thread nD τ) (ms_2 t) fullShare (step V c t (accAt V c t.val (Nat.le_of_lt t.isLt))).1.1 from by
        unfold Dat.leavesExact; rw [(live_out t h1).1] <;> rfl,
      show (dat V c).leavesExact 3 t = owns (c : Thread nD τ) (ms_3 t) fullShare (step V c t (accAt V c t.val (Nat.le_of_lt t.isLt))).1.2 from by
        unfold Dat.leavesExact; rw [(live_out t h1).2] <;> rfl]
    unfold accOwn
    generalize accAt V c t.val _ = s
    rw [step, dif_neg h0, dif_pos h1]
    have e0 := ownsC c scM_0 (runC V c t h0 h1 s).2.2.1 S16x256.size (by sl_kernel_rfl)
    have e1 := ownsC c scM_1 (runC V c t h0 h1 s).2.2.2.1 S256x256.size (by sl_kernel_rfl)
    have e2 := ownsC c (ms_2 t) (runC V c t h0 h1 s).1 S1x16x256.size (by sl_kernel_rfl)
    have e3 := ownsC c (ms_3 t) (runC V c t h0 h1 s).2.1 S1x256x256.size (by sl_kernel_rfl)
    iintro ⟨⟨⟨⟨HS0, HS1⟩, HR⟩, Hg⟩, Ho, ⟨%d0, H0⟩, ⟨%d1, H1⟩, ⟨%d2, H2⟩, ⟨%d3, H3⟩⟩
    iapply ((runC V c t h0 h1 s).2.2.2.2 Set.univ _)
    iframe H0 H1 HS0 HS1
    isplitl [H2]; · iexists _; iexact H2
    isplitl [H3]; · iexists _; iexact H3
    iintro ⟨H0, H1, H2, H3, HS0, HS1⟩
    icases e0 $$ HS0 with HS0
    icases e1 $$ HS1 with HS1
    icases e2 $$ H2 with H2
    icases e3 $$ H3 with H3
    iframe
  · rw [Dat.leavesExact_idle _ 2 t (idle_out t h1).1.1 (idle_out t h1).1.2, Dat.leavesExact_idle _ 3 t (idle_out t h1).2.1 (idle_out t h1).2.2]
    by_cases h0 : t.val % 256 = 0
    case' pos =>
      rw [step, dif_pos h0]
      refine (sep_mono_left (PhiS_weak V c _ _)).trans ?_
      rw [PhiA_eq]
      have e0 := ownsC c scM_0 (runA V c t h0 h1).1 S16x256.size (by sl_kernel_rfl)
      have e1 := ownsC c scM_1 (runA V c t h0 h1).2.1 S256x256.size (by sl_kernel_rfl)
      have r := (runA V c t h0 h1).2.2 Set.univ
    case' neg =>
      rw [PhiS_pos V c _ _ (fun h => h0 (by rw [h]))]
      generalize accAt V c t.val _ = s
      rw [step, dif_neg h0, dif_neg h1]
      have e0 := ownsC c scM_0 (runB V c t h0 h1 s).1 S16x256.size (by sl_kernel_rfl)
      have e1 := ownsC c scM_1 (runB V c t h0 h1 s).2.1 S256x256.size (by sl_kernel_rfl)
      have r := (runB V c t h0 h1 s).2.2 Set.univ
    all_goals
      unfold accOwn
      iintro ⟨⟨⟨⟨HS0, HS1⟩, HR⟩, Hg⟩, Ho, ⟨%d0, H0⟩, ⟨%d1, H1⟩, H2, H3⟩
      iapply (r _)
      iframe H0 H1 HS0 HS1
      iintro ⟨H0, H1, HS0, HS1⟩
      icases e0 $$ HS0 with HS0
      icases e1 $$ HS1 with HS1
      iframe

theorem hin : Pipeline.ΦA spec0 c ⊢ (dat V c).Φ 0 := .rfl

theorem hout : (dat V c).Φ (Fin.last cfg0.N) ⊢ Pipeline.ΦA spec0 c := PhiS_weak V c (Fin.last cfg0.N).val _

end Cert.KernelIdeal.Stats

end
-- ==== Proof.IntraShared.lean ====
import proofs.«415856_j56882546868663_3_alg».proof.Proof.Gen.KernelIdeal.Launch
import proofs.«415856_j56882546868663_3_alg».proof.Proof.Gen.KernelIdeal.Skeleton
import proofs.«415856_j56882546868663_3_alg».proof.Proof.Gen.KernelIdeal.Points
import proofs.«415856_j56882546868663_3_alg».proof.Proof.LibFrame
import Idealize.ShloMosaic.Lib.Pipeline.FrameSuffix
import Idealize.ShloMosaic.Lib.Tactic

noncomputable section

namespace Cert.KernelIdeal.Intra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the arrays the region finds. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The body's two conditions pick out the first and the last point of a row of 256. -/
abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 256 = 0 :=
  (by decide +kernel : ∀ t : Fin grid1.N, cond_0 (grid1.coords t) ↔ t.val % 256 = 0)
abbrev cond_1 (i : grid1.Coords) : Prop := k1_cond2 i = 1#1
theorem hcond_1 : ∀ t : Fin cfg1.N, cond_1 (grid1.coords t) ↔ t.val % 256 = 255 :=
  (by decide +kernel : ∀ t : Fin grid1.N, cond_1 (grid1.coords t) ↔ t.val % 256 = 255)

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem idleAt_3 : ∀ t : Fin cfg1.N, ¬t.val % 256 = 255 → cfg1.idle 3 (grid1.coords t) = true ∧ (cfg1.win 3).flush t = false := by decide +kernel
theorem liveAt_3 : ∀ t : Fin cfg1.N, t.val % 256 = 255 → cfg1.idle 3 (grid1.coords t) = false := by decide +kernel

abbrev ms_0 (t : Fin cfg1.N) : Memref sig .tc .vmem S16x2048 .f32 := win1_0.stage (cfg1.slots t 0)
abbrev ms_1 (t : Fin cfg1.N) : Memref sig .tc .vmem S1x2048 .i32 := win1_1.stage (cfg1.slots t 1)
abbrev ms_2 (t : Fin cfg1.N) : Memref sig .tc .vmem S256x256 .f32 := win1_2.stage (cfg1.slots t 2)
abbrev ms_3 (t : Fin cfg1.N) : Memref sig .tc .vmem S1x16x256 .f32 := win1_3.stage (cfg1.slots t 3)
abbrev scM_0 : Memref sig .tc .vmem S16x256 .f32 := Memref.whole cc1_scratch0

/-- The body's five memref arguments, each whole. -/
structure Args where
  a2 : Memref sig .tc .vmem S16x2048 .f32
  h2 : a2.IsWhole
  a3 : Memref sig .tc .vmem S1x2048 .i32
  h3 : a3.IsWhole
  a4 : Memref sig .tc .vmem S256x256 .f32
  h4 : a4.IsWhole
  a5 : Memref sig .tc .vmem S1x16x256 .f32
  h5 : a5.IsWhole
  a6 : Memref sig .tc .vmem S16x256 .f32
  h6 : a6.IsWhole

abbrev argsAt (t : Fin cfg1.N) : Args :=
  ⟨ms_0 t, hstage1_0 ((cfg1.slots t 0).cast nbuf1_0), ms_1 t, hstage1_1 ((cfg1.slots t 1).cast nbuf1_1), ms_2 t, hstage1_2 ((cfg1.slots t 2).cast nbuf1_2), ms_3 t, hstage1_3 ((cfg1.slots t 3).cast nbuf1_3), scM_0, Memref.isWhole_whole _⟩

/-- The region's invariant around a fact `X` about the accumulator: the core's other scoped buffers and the generator register at anything. -/
def inv (c : Dev nD) (X : sProp 𝕄) : sProp 𝕄 :=
  iprop((X ∗ Pipeline.scopedRestBut spec1 c [cc1_scratch0]) ∗ ∃ r, prngReg c r)

theorem PhiA_eq (c : Dev nD) : (Pipeline.ΦA spec1 c : sProp 𝕄) = inv c iprop(∃ d, owns (c : Thread nD τ) scM_0 fullShare d) := by
  unfold Pipeline.ΦA inv
  rw [Pipeline.scopedRest_split_of_list spec1 c [cc1_scratch0] (by decide) (by decide)]
  simp only [bigSepL_singleton, scM_0, owns_whole]; try rfl

/-- The accumulator's fact is taken out of the invariant, and any other can be put in its place. -/
theorem inv_take (c : Dev nD) (X : sProp 𝕄) : inv c X ⊢ iprop(X ∗ ∀ Y, Y -∗ inv c Y) := by
  unfold inv; iintro ⟨⟨HX, HR⟩, Hg⟩; iframe HX; iintro %Y HY; iframe

end Cert.KernelIdeal.Intra

end
-- ==== Proof.IntraRunA.lean ====
import proofs.«415856_j56882546868663_3_alg».proof.Proof.IntraShared

noncomputable section

namespace Cert.KernelIdeal.Intra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body at a row's first point: the accumulator is zeroed, then the tile's step is stored; the output block is not touched. -/
def kernelRun_A (c : Dev nD) (i : grid1.Coords) (A : Args) (hc0 : cond_0 i) (hc1 : ¬cond_1 i) (x0 : Vec F S16x2048 .f32) (x1 : Vec F S1x2048 .i32) (x2 : Vec F S256x256 .f32) :
    { LS0 : List (View.Piece (Elt F) S16x256 .f32) //
      ∀ (E : Set ℕ) (K : PUnit → sProp 𝕄),
        iprop(owns (c : Thread nD τ) A.a2 fullShare x0 ∗ owns (c : Thread nD τ) A.a3 fullShare x1 ∗ owns (c : Thread nD τ) A.a4 fullShare x2
            ∗ (∃ d, owns (c : Thread nD τ) A.a6 fullShare d)
            ∗ (iprop(owns (c : Thread nD τ) A.a2 fullShare x0 ∗ owns (c : Thread nD τ) A.a3 fullShare x1 ∗ owns (c : Thread nD τ) A.a4 fullShare x2
                ∗ (∃ f, A.a6.view.loc (c : Thread nD τ) ↦[A.a6.view.set]{fullShare} A.a6.view.writes (Elt F) f LS0)) -∗ K ⟨⟩))
          ⊢ wp frame (wpE (defs₀ (F := F)) Variants.none c none) E (cc1__intra_kernel i A.a2 A.h2 A.a3 A.h3 A.a4 A.h4 A.a5 A.h5 A.a6 A.h6) K } := by
  refine ⟨?_, fun E K => ?run⟩
  case run =>
    simp only [cc1__intra_kernel_eq_skeleton]; unfold cc1__intra_kernel_skel
    simp only [k1_part1_eq_skeleton, k1_part2_eq_skeleton]
    unfold owns
    iintro ⟨⟨%f0, %hf0, H0⟩, ⟨%f1, %hf1, H1⟩, ⟨%f2, %hf2, H2⟩, ⟨%ds0, %fs0, -, HS0⟩, Hk⟩
    obtain rfl := A.h2.eq_unread hf0; obtain rfl := A.h3.eq_unread hf1; obtain rfl := A.h4.eq_unread hf2
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; isplitr; · ipureintro; exact A.h4.read_unread _
      iexact H2
    iexists _; iexact HS0

end Cert.KernelIdeal.Intra

end
-- ==== Proof.IntraRunB.lean ====
import proofs.«415856_j56882546868663_3_alg».proof.Proof.IntraRunA

noncomputable section

namespace Cert.KernelIdeal.Intra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body inside a row: the tile's step over the accumulator `xs0` is stored; the output block is not touched. -/
def kernelRun_B (c : Dev nD) (i : grid1.Coords) (A : Args) (hc0 : ¬cond_0 i) (hc1 : ¬cond_1 i) (x0 : Vec F S16x2048 .f32) (x1 : Vec F S1x2048 .i32) (x2 : Vec F S256x256 .f32) (xs0 : Vec F S16x256 .f32) :
    { LS0 : List (View.Piece (Elt F) S16x256 .f32) //
      ∀ (E : Set ℕ) (K : PUnit → sProp 𝕄),
        iprop(owns (c : Thread nD τ) A.a2 fullShare x0 ∗ owns (c : Thread nD τ) A.a3 fullShare x1 ∗ owns (c : Thread nD τ) A.a4 fullShare x2
            ∗ owns (c : Thread nD τ) A.a6 fullShare xs0
            ∗ (iprop(owns (c : Thread nD τ) A.a2 fullShare x0 ∗ owns (c : Thread nD τ) A.a3 fullShare x1 ∗ owns (c : Thread nD τ) A.a4 fullShare x2
                ∗ (∃ f, A.a6.view.loc (c : Thread nD τ) ↦[A.a6.view.set]{fullShare} A.a6.view.writes (Elt F) f LS0)) -∗ K ⟨⟩))
          ⊢ wp frame (wpE (defs₀ (F := F)) Variants.none c none) E (cc1__intra_kernel i A.a2 A.h2 A.a3 A.h3 A.a4 A.h4 A.a5 A.h5 A.a6 A.h6) K } := by
  refine ⟨?_, fun E K => ?run⟩
  case run =>
    simp only [cc1__intra_kernel_eq_skeleton]; unfold cc1__intra_kernel_skel
    simp only [k1_part1_eq_skeleton, k1_part2_eq_skeleton]
    unfold owns
    iintro ⟨⟨%f0, %hf0, H0⟩, ⟨%f1, %hf1, H1⟩, ⟨%f2, %hf2, H2⟩, ⟨%fs0, %hfs0, HS0⟩, Hk⟩
    obtain rfl := A.h2.eq_unread hf0; obtain rfl := A.h3.eq_unread hf1; obtain rfl := A.h4.eq_unread hf2
    obtain rfl := A.h6.eq_unread hfs0
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; isplitr; · ipureintro; exact A.h4.read_unread _
      iexact H2
    iexists _; iexact HS0

end Cert.KernelIdeal.Intra

end
-- ==== Proof.IntraRunC.lean ====
import proofs.«415856_j56882546868663_3_alg».proof.Proof.IntraRunB

noncomputable section

namespace Cert.KernelIdeal.Intra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The whole body at a row's last point: the step is stored, and the accumulator's new contents are stored into the output block. -/
def kernelRun_C (c : Dev nD) (i : grid1.Coords) (A : Args) (hc0 : ¬cond_0 i) (hc1 : cond_1 i) (x0 : Vec F S16x2048 .f32) (x1 : Vec F S1x2048 .i32) (x2 : Vec F S256x256 .f32) (xs0 : Vec F S16x256 .f32) :
    Σ' (L3 : List (View.Piece (Elt F) S1x16x256 .f32)), { LS0 : List (View.Piece (Elt F) S16x256 .f32) //
      ∀ (E : Set ℕ) (K : PUnit → sProp 𝕄),
        iprop(owns (c : Thread nD τ) A.a2 fullShare x0 ∗ owns (c : Thread nD τ) A.a3 fullShare x1 ∗ owns (c : Thread nD τ) A.a4 fullShare x2 ∗ (∃ d, owns (c : Thread nD τ) A.a5 fullShare d)
            ∗ owns (c : Thread nD τ) A.a6 fullShare xs0
            ∗ (iprop(owns (c : Thread nD τ) A.a2 fullShare x0 ∗ owns (c : Thread nD τ) A.a3 fullShare x1 ∗ owns (c : Thread nD τ) A.a4 fullShare x2
                ∗ (∃ f, A.a5.view.loc (c : Thread nD τ) ↦[A.a5.view.set]{fullShare} A.a5.view.writes (Elt F) f L3)
                ∗ (∃ f, A.a6.view.loc (c : Thread nD τ) ↦[A.a6.view.set]{fullShare} A.a6.view.writes (Elt F) f LS0)) -∗ K ⟨⟩))
          ⊢ wp frame (wpE (defs₀ (F := F)) Variants.none c none) E (cc1__intra_kernel i A.a2 A.h2 A.a3 A.h3 A.a4 A.h4 A.a5 A.h5 A.a6 A.h6) K } := by
  refine ⟨?_, ?_, fun E K => ?run⟩
  case run =>
    simp only [cc1__intra_kernel_eq_skeleton]; unfold cc1__intra_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := A.h2.eq_unread hf0; obtain rfl := A.h3.eq_unread hf1; obtain rfl := A.h4.eq_unread hf2
    obtain rfl := A.h6.eq_unread hfs0
    sl_exec (disch := first | exact hc0 | exact hc1)
    sl_step
    iapply Hk
    isplitl [H0]
    · iexists _; isplitr; · ipureintro; exact A.h2.read_unread _
      iexact H0
    isplitl [H1]
    · iexists _; isplitr; · ipureintro; exact A.h3.read_unread _
      iexact H1
    isplitl [H2]
    · iexists _; isplitr; · ipureintro; exact A.h4.read_unread _
      iexact H2
    isplitl [H3]
    · iexists _; iexact H3
    iexists _; iexact HS0

end Cert.KernelIdeal.Intra

end
-- ==== Proof.IntraFrame.lean ====
import proofs.«415856_j56882546868663_3_alg».proof.Proof.IntraRunC

noncomputable section

namespace Cert.KernelIdeal.Intra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b)) (c : Dev nD)

/-- The three runs at grid point `t`, over the blocks the windows read there. -/
def runA (t : Fin cfg1.N) (h0 : t.val % 256 = 0) :=
  kernelRun_A c (grid1.coords t) (argsAt t) ((hcond_0 t).mpr h0) (fun h => by have := (hcond_1 t).mp h; omega) (iblk V c 0 t) (iblk V c 1 t) (iblk V c 2 t)
def runB (t : Fin cfg1.N) (h0 : ¬t.val % 256 = 0) (h1 : ¬t.val % 256 = 255) (a : Vec F S16x256 .f32) :=
  kernelRun_B c (grid1.coords t) (argsAt t) (mt (hcond_0 t).mp h0) (mt (hcond_1 t).mp h1) (iblk V c 0 t) (iblk V c 1 t) (iblk V c 2 t) a
def runC (t : Fin cfg1.N) (h1 : t.val % 256 = 255) (a : Vec F S16x256 .f32) :=
  kernelRun_C c (grid1.coords t) (argsAt t) (fun h => by have := (hcond_0 t).mp h; omega) ((hcond_1 t).mpr h1) (iblk V c 0 t) (iblk V c 1 t) (iblk V c 2 t) a

/-- What point `t` leaves in the output block (nothing said away from a row's last point) and in the accumulator, over the accumulator `a` it finds. -/
def stepAt (t : Fin cfg1.N) (a : Vec F S16x256 .f32) : Vec F S1x16x256 .f32 × Vec F S16x256 .f32 :=
  if h0 : t.val % 256 = 0 then (View.canon [], View.canon (runA V c t h0).1)
  else if h1 : t.val % 256 = 255 then (View.canon (runC V c t h1 a).1, View.canon (runC V c t h1 a).2.1)
  else (View.canon [], View.canon (runB V c t h0 h1 a).1)

/-- The accumulator before point `n`. -/
def accAt : ℕ → Vec F S16x256 .f32
  | 0 => View.canon []
  | n + 1 => if h : n < cfg1.N then (stepAt V c ⟨n, h⟩ (accAt n)).2 else View.canon []

theorem accAt_succ (t : Fin cfg1.N) : accAt V c (t.val + 1) = (stepAt V c t (accAt V c t.val)).2 := dif_pos t.isLt

/-- The invariant before point `n`: the region's entry form at the first point, afterwards with the accumulator at `accAt n`. -/
def Phi (n : ℕ) : sProp 𝕄 :=
  if n = 0 then Pipeline.ΦA spec1 c else inv c (owns (c : Thread nD τ) scM_0 fullShare (accAt V c n))

/-- At any point the invariant gives the accumulator at some contents. -/
theorem Phi_entry (n : ℕ) : Phi V c n ⊢ inv c iprop(∃ d, owns (c : Thread nD τ) scM_0 fullShare d) := by
  unfold Phi; split
  · rw [PhiA_eq]
  · refine (inv_take c _).trans ?_; iintro ⟨HS, Hc⟩; iapply Hc; iexists _; iexact HS

def dat : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (stepAt V c t (accAt V c t.val)).1
  Φ t := Phi V c t.val
  q _ := fullShare
  owed _ := 0

theorem A_eq (w : Fin cfg1.W) : (dat V c).A w = V c (Pipeline.arrRef spec1 w) := rfl

theorem before_0 (t : Fin cfg1.N) (d) : (dat V c).before 0 t d = iblk V c 0 t :=
  ((dat V c).before_in_eq_fetched 0 rfl (fun _ => rfl) (fun _ _ _ => rfl) (fun _ => rfl) t d).trans rfl
theorem before_1 (t : Fin cfg1.N) (d) : (dat V c).before 1 t d = iblk V c 1 t :=
  ((dat V c).before_in_eq_fetched 1 rfl (fun _ => rfl) (fun _ _ _ => rfl) (fun _ => rfl) t d).trans rfl
theorem before_2 (t : Fin cfg1.N) (d) : (dat V c).before 2 t d = iblk V c 2 t :=
  ((dat V c).before_in_eq_fetched 2 rfl (fun _ => rfl) (fun _ _ _ => rfl) (fun _ => rfl) t d).trans rfl

/-- The body at any point: the invariant hands it the accumulator and takes it back at what the point's run leaves. -/
theorem sound_body (t : Fin cfg1.N) :
    iprop((dat V c).Φ t.castSucc ∗ (dat V c).owesAt () t.castSucc
      ∗ (∃ d, owns (c : Thread nD τ) (ms_0 t) fullShare ((dat V c).before 0 t d))
      ∗ (∃ d, owns (c : Thread nD τ) (ms_1 t) fullShare ((dat V c).before 1 t d))
      ∗ (∃ d, owns (c : Thread nD τ) (ms_2 t) fullShare ((dat V c).before 2 t d))
      ∗ (∃ d, owns (c : Thread nD τ) (ms_3 t) fullShare ((dat V c).before 3 t d)))
      ⊢ wp frame (wpE (defs₀ (F := F)) Variants.none c none) Set.univ (bodyAt1 t) (fun _ =>
        iprop((dat V c).Φ t.succ ∗ (dat V c).owesAt () t.succ
          ∗ (dat V c).leavesExact 0 t ∗ (dat V c).leavesExact 1 t ∗ (dat V c).leavesExact 2 t ∗ (dat V c).leavesExact 3 t)) := by
  unfold bodyAt1
  simp only [before_0, before_1, before_2]
  rw [show (dat V c).owesAt () t.succ = (dat V c).owesAt () t.castSucc from rfl,
    show (dat V c).Φ t.succ = Phi V c (t.val + 1) from rfl, Phi, if_neg (Nat.succ_ne_zero _), accAt_succ,
    show (dat V c).Φ t.castSucc = Phi V c t.val from rfl,
    show (dat V c).leavesExact 0 t = owns (c : Thread nD τ) (ms_0 t) fullShare (iblk V c 0 t) from by
      unfold Dat.leavesExact; rw [liveAt_0 t]; rfl,
    show (dat V c).leavesExact 1 t = owns (c : Thread nD τ) (ms_1 t) fullShare (iblk V c 1 t) from by
      unfold Dat.leavesExact; rw [liveAt_1 t]; rfl,
    show (dat V c).leavesExact 2 t = owns (c : Thread nD τ) (ms_2 t) fullShare (iblk V c 2 t) from by
      unfold Dat.leavesExact; rw [liveAt_2 t]; rfl]
  by_cases h0 : t.val % 256 = 0
  · have h1 : ¬t.val % 256 = 255 := by omega
    rw [Dat.leavesExact_idle _ 3 t (idleAt_3 t h1).1 (idleAt_3 t h1).2, stepAt, dif_pos h0]
    refine (sep_mono_left ((Phi_entry V c _).trans (inv_take c _))).trans ?_
    have r := (runA V c t h0).2 Set.univ
    iintro ⟨⟨HS, Hc⟩, Ho, ⟨%d0, H0⟩, ⟨%d1, H1⟩, ⟨%d2, H2⟩, ⟨%d3, H3⟩⟩
    iapply (r _)
    iframe H0 H1 H2 HS
    iintro ⟨H0, H1, H2, HS⟩
    isplitl [Hc HS]
    · iapply Hc; iapply Cert.LibFrame.owns_canon _ _ _ _ S16x256.size (by sl_kernel_rfl); iexact HS
    iframe Ho H0 H1 H2; iexists _; iexact H3
  · have hz : ¬t.val = 0 := fun h => h0 (by rw [h])
    by_cases h1 : t.val % 256 = 255
    · rw [Phi, if_neg hz, show (dat V c).leavesExact 3 t = owns (c : Thread nD τ) (ms_3 t) fullShare (stepAt V c t (accAt V c t.val)).1 from by
        unfold Dat.leavesExact; rw [liveAt_3 t h1]; rfl, stepAt, dif_neg h0, dif_pos h1]
      generalize accAt V c t.val = a
      have r := (runC V c t h1 a).2.2 Set.univ
      refine (sep_mono_left (inv_take c _)).trans ?_
      iintro ⟨⟨HS, Hc⟩, Ho, ⟨%d0, H0⟩, ⟨%d1, H1⟩, ⟨%d2, H2⟩, ⟨%d3, H3⟩⟩
      iapply (r _)
      iframe H0 H1 H2 HS
      isplitl [H3]; · iexists _; iexact H3
      iintro ⟨H0, H1, H2, H3, HS⟩
      isplitl [Hc HS]
      · iapply Hc; iapply Cert.LibFrame.owns_canon _ _ _ _ S16x256.size (by sl_kernel_rfl); iexact HS
      iframe Ho H0 H1 H2
      iapply Cert.LibFrame.owns_canon _ _ _ _ S1x16x256.size (by sl_kernel_rfl); iexact H3
    · rw [Phi, if_neg hz, Dat.leavesExact_idle _ 3 t (idleAt_3 t h1).1 (idleAt_3 t h1).2, stepAt, dif_neg h0, dif_neg h1]
      generalize accAt V c t.val = a
      have r := (runB V c t h0 h1 a).2 Set.univ
      refine (sep_mono_left (inv_take c _)).trans ?_
      iintro ⟨⟨HS, Hc⟩, Ho, ⟨%d0, H0⟩, ⟨%d1, H1⟩, ⟨%d2, H2⟩, ⟨%d3, H3⟩⟩
      iapply (r _)
      iframe H0 H1 H2 HS
      iintro ⟨H0, H1, H2, HS⟩
      isplitl [Hc HS]
      · iapply Hc; iapply Cert.LibFrame.owns_canon _ _ _ _ S16x256.size (by sl_kernel_rfl); iexact HS
      iframe Ho H0 H1 H2; iexists _; iexact H3

theorem body_obligation : BodyObligation (dat (F := F) V c) (defs₀ (F := F)) Variants.none () Set.univ := fun t => by
  rw [bigSep_W1, bigSep_W1]
  exact sound_body V c t

theorem hin : Pipeline.ΦA spec1 c ⊢ (dat V c).Φ 0 := by
  rw [show (dat V c).Φ 0 = Phi V c 0 from rfl, Phi, if_pos rfl]

theorem hout : (dat V c).Φ (Fin.last cfg1.N) ⊢ Pipeline.ΦA spec1 c := by
  rw [PhiA_eq]; exact Phi_entry V c (cfg1.N)

end Cert.KernelIdeal.Intra

end
-- ==== Proof.Digits.lean ====
import proofs.«415856_j56882546868663_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Digits

open Cert.KernelIdeal Cert.KernelIdeal.Gen
open Idealize.ShloMosaic Idealize.ShloMosaic.ValueIdx

def lab (x1 : Vec Ideal S1x2048 .i32) (l : Fin 2048) : BitVec 32 := x1 (ix2 (0 : Fin 1) l)

/-- Below 4096 the sign bit is clear, so the arithmetic shift by eight is the quotient by 256. -/
theorem hiDigit (w : BitVec 32) (hw : w.toNat < 4096) : (IntOp.shrsi .vector w 8#32).toNat = w.toNat / 256 := by
  have hm : w.msb = false := by
    rw [BitVec.msb_eq_false_iff_two_mul_lt]; omega
  unfold IntOp.shrsi
  rw [if_pos (by decide)]
  show (w.sshiftRight (8#32).toNat).toNat = _
  rw [BitVec.sshiftRight_eq_of_msb_false hm, BitVec.toNat_ushiftRight, Nat.shiftRight_eq_div_pow]
  rfl

theorem loDigit (w : BitVec 32) : (IntOp.andi w 255#32).toNat = w.toNat % 256 := by
  unfold IntOp.andi
  rw [BitVec.toNat_and]
  exact Nat.and_two_pow_sub_one_eq_mod w.toNat 8

/-- An equality test, widened and converted, is the indicator of the equality. -/
theorem indicator (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  unfold IntOp.cmpi
  by_cases h : a = b
  · subst h; simp
  · rw [if_neg h]
    have : (a == b) = false := by simpa using h
    simp [this]

theorem ofNat_eq_iff (r : Nat) (hr : r < 4294967296) (b : BitVec 32) : BitVec.ofNat 32 r = b ↔ r = b.toNat := by
  constructor
  · intro h; rw [← h, BitVec.toNat_ofNat]; exact (Nat.mod_eq_of_lt hr).symm
  · intro h
    apply BitVec.eq_of_toNat_eq
    rw [BitVec.toNat_ofNat, h]
    exact Nat.mod_eq_of_lt b.isLt

theorem bcast_row {α : Type} {n : Nat} (x : S1x2048.Idx → α) (hb : S1x2048.Broadcasts (⟨2, ![n, 2048]⟩ : Shape)) (r : Fin n) (l : Fin 2048) :
    broadcastTo (⟨2, ![n, 2048]⟩ : Shape) x hb (ix2 r l) = x (ix2 (0 : Fin 1) l) :=
  broadcastTo_apply x hb (ix2 r l) (ix2 (0 : Fin 1) l) fun a => match a with | ⟨0, _⟩ => rfl | ⟨1, _⟩ => rfl

/-- Entry `(h, l)` of the high-digit indicator matrix of a row of labels. -/
theorem hiInd (y : Vec Ideal S1x2048 .i32) (h : Fin 16) (l : Fin 2048) (hx : (lab y l).toNat < 4096) :
    FloatOps.sitofp (F := Ideal) .f32 ((IntOp.cmpi .eq (iota .tc S16x2048 32 [0] iota_S16x2048_d0_w32 (ix2 h l))
      (broadcastTo S16x2048 (shrsi y (broadcast S1x2048 8#32)) broadcasts_S1x2048_S16x2048 (ix2 h l))).setWidth 32)
      = if h.val = (lab y l).toNat / 256 then (1 : EReal) else 0 := by
  rw [indicator, iota_single_apply, bcast_row]
  show (if BitVec.ofNat 32 h.val = IntOp.shrsi .vector (lab y l) 8#32 then (1 : EReal) else 0) = _
  have hr : h.val < 4294967296 := by have := h.isLt; omega
  simp only [ofNat_eq_iff h.val hr, hiDigit _ hx]

/-- Entry `(r, l)` of the low-digit indicator matrix. -/
theorem loInd (y : Vec Ideal S1x2048 .i32) (r : Fin 256) (l : Fin 2048) :
    FloatOps.sitofp (F := Ideal) .f32 ((IntOp.cmpi .eq (iota .tc S256x2048 32 [0] iota_S256x2048_d0_w32 (ix2 r l))
      (broadcastTo S256x2048 (andi y (broadcast S1x2048 255#32)) broadcasts_S1x2048_S256x2048 (ix2 r l))).setWidth 32)
      = if r.val = (lab y l).toNat % 256 then (1 : EReal) else 0 := by
  rw [indicator, iota_single_apply, bcast_row]
  show (if BitVec.ofNat 32 r.val = IntOp.andi (lab y l) 255#32 then (1 : EReal) else 0) = _
  have hr : r.val < 4294967296 := by have := r.isLt; omega
  simp only [ofNat_eq_iff r.val hr, loDigit]

abbrev Dc : DotDims S16x2048 S256x2048 S16x256 := dot_S16x2048_S256x2048_S16x256_1_1_0_0_n_n

theorem lhsC_0 (j : S16x256.Idx) (k : Dc.contr.Idx) : (Dc.lhsIdx j k 0 : ℕ) = j 0 := by
  simp [DotDims.lhsIdx, Dc, dot_S16x2048_S256x2048_S16x256_1_1_0_0_n_n]; rfl
theorem lhsC_1 (j : S16x256.Idx) (k : Dc.contr.Idx) : (Dc.lhsIdx j k 1 : ℕ) = k ⟨0, by decide⟩ := by
  simp [DotDims.lhsIdx, Dc, dot_S16x2048_S256x2048_S16x256_1_1_0_0_n_n]; rfl
theorem rhsC_0 (j : S16x256.Idx) (k : Dc.contr.Idx) : (Dc.rhsIdx j k 0 : ℕ) = j 1 := by
  simp [DotDims.rhsIdx, Dc, dot_S16x2048_S256x2048_S16x256_1_1_0_0_n_n]; rfl
theorem rhsC_1 (j : S16x256.Idx) (k : Dc.contr.Idx) : (Dc.rhsIdx j k 1 : ℕ) = k ⟨0, by decide⟩ := by
  simp [DotDims.rhsIdx, Dc, dot_S16x2048_S256x2048_S16x256_1_1_0_0_n_n]; rfl

/-- The 16 × 256 contraction over the tile's pixels pairs row `hi` of its left operand with row `lo` of its right. -/
theorem lhsC_idx (hi : Fin 16) (lo : Fin 256) (l : Fin 2048) :
    Dc.lhsIdx (ix2 hi lo) ((contrEquiv1 Dc 2048 rfl rfl).symm l) = ix2 hi l :=
  Shape.idx_ext₂ (by rw [lhsC_0]) (by rw [lhsC_1]; exact contrEquiv1_symm_val Dc 2048 rfl rfl l)
theorem rhsC_idx (hi : Fin 16) (lo : Fin 256) (l : Fin 2048) :
    Dc.rhsIdx (ix2 hi lo) ((contrEquiv1 Dc 2048 rfl rfl).symm l) = ix2 lo l :=
  Shape.idx_ext₂ (by rw [rhsC_0]) (by rw [rhsC_1]; exact contrEquiv1_symm_val Dc 2048 rfl rfl l)

end Cert.KernelIdeal.Digits

end
-- ==== Proof.StatsPay.lean ====
import proofs.«415856_j56882546868663_3_alg».proof.Proof.Digits

noncomputable section

namespace Cert.KernelIdeal.StatsPay

open Cert.KernelIdeal Cert.KernelIdeal.Gen
open Idealize.ShloMosaic Idealize.ShloMosaic.ValueIdx Digits

abbrev lab := Digits.lab

theorem pay7_eq (x1 : Vec Ideal S1x2048 .i32) : k0_pay7 (F := Ideal) x1 = x1 := by
  unfold k0_pay7; exact shapeCast_self _ _

theorem pay9_apply (x1 : Vec Ideal S1x2048 .i32) (h : Fin 16) (l : Fin 2048) (hx : (lab x1 l).toNat < 4096) :
    k0_pay9 (F := Ideal) x1 (ix2 h l) = if h.val = (lab x1 l).toNat / 256 then (1 : EReal) else 0 := by
  unfold k0_pay9; rw [pay7_eq]; exact Digits.hiInd x1 h l hx

theorem pay8_apply (x1 : Vec Ideal S1x2048 .i32) (r : Fin 256) (l : Fin 2048) :
    k0_pay8 (F := Ideal) x1 (ix2 r l) = if r.val = (lab x1 l).toNat % 256 then (1 : EReal) else 0 := by
  unfold k0_pay8; rw [pay7_eq]; exact Digits.loInd x1 r l

theorem ind_mul (n : Nat) (hi : Fin 16) (lo : Fin 256) :
    (if hi.val = n / 256 then (1 : EReal) else 0) * (if lo.val = n % 256 then (1 : EReal) else 0)
      = if n = hi.val * 256 + lo.val then (1 : EReal) else 0 := by
  by_cases h1 : hi.val = n / 256
  · by_cases h2 : lo.val = n % 256
    · rw [if_pos h1, if_pos h2, if_pos (by omega), one_mul]
    · rw [if_pos h1, if_neg h2, if_neg (by omega), mul_zero]
  · rw [if_neg h1, zero_mul, if_neg (by omega)]

/-- One tile adds to entry (hi, lo) of the counts the number of its pixels labelled 256 hi + lo: the product of the two digit indicators is the indicator of the label. -/
theorem cntStep_apply (x1 : Vec Ideal S1x2048 .i32) (a : Vec Ideal S16x256 .f32) (hi : Fin 16) (lo : Fin 256)
    (hx : ∀ l, (lab x1 l).toNat < 4096) :
    k0_pay2 (F := Ideal) (k0_pay8 x1) (k0_pay9 x1) a (ix2 hi lo)
      = a (ix2 hi lo) + ∑ l : Fin 2048, (if (lab x1 l).toNat = hi.val * 256 + lo.val then (1 : EReal) else 0) := by
  unfold k0_pay2
  show shapeCast S16x256 (addf a (matmul Dc none (k0_pay9 (F := Ideal) x1) (k0_pay8 (F := Ideal) x1)
    (constant S16x256 .f32 0x00000000#32))) shapeCasts_S16x256_S16x256 (ix2 hi lo) = _
  rw [shapeCast_self]
  show a (ix2 hi lo) + FloatOps.matmul Dc none (k0_pay9 (F := Ideal) x1) (k0_pay8 (F := Ideal) x1)
    (constant S16x256 .f32 0x00000000#32) (ix2 hi lo) = _
  refine congrArg (fun t => a (ix2 hi lo) + t) ?_
  refine (Ideal.matmul_constant_zero_apply Dc none _ _ (ix2 hi lo)).trans ?_
  rw [← Equiv.sum_comp (contrEquiv1 Dc 2048 rfl rfl).symm]
  refine Finset.sum_congr rfl fun l _ => ?_
  rw [lhsC_idx, rhsC_idx, pay9_apply x1 hi l (hx l), pay8_apply x1 lo l]
  exact ind_mul _ hi lo

theorem pay10_apply (x0 : Vec Ideal S16x2048 .f32) (e : Fin 16) (l : Fin 2048) :
    k0_pay10 (F := Ideal) x0 (ix2 e l) = x0 (ix2 e l) := by
  unfold k0_pay10
  show shapeCast S16x2048 x0 shapeCasts_S16x2048_S16x2048 (ix2 e l) = _
  rw [shapeCast_self]

theorem masked_apply (x0 : Vec Ideal S16x2048 .f32) (x1 : Vec Ideal S1x2048 .i32) (off : Fin 2 → Nat)
    (hs : S16x2048.Slices off S1x2048) (h : Fin 16) (h0 : off 0 = h.val) (h1 : off 1 = 0) (e : Fin 16) (l : Fin 2048) :
    mulf (k0_pay10 (F := Ideal) x0)
        (broadcastTo S16x2048 (extractStridedSlice S1x2048 off (k0_pay9 (F := Ideal) x1) hs) broadcasts_S1x2048_S16x2048) (ix2 e l)
      = x0 (ix2 e l) * k0_pay9 (F := Ideal) x1 (ix2 h l) := by
  show k0_pay10 (F := Ideal) x0 (ix2 e l)
    * broadcastTo S16x2048 (extractStridedSlice S1x2048 off (k0_pay9 (F := Ideal) x1) hs) broadcasts_S1x2048_S16x2048 (ix2 e l) = _
  rw [pay10_apply, broadcastTo_1b_ab_apply]
  refine congrArg (fun t => x0 (ix2 e l) * t) ?_
  refine extractStridedSlice_apply off _ hs (ix2 (0 : Fin 1) l) (ix2 h l) fun a => ?_
  match a with
  | ⟨0, _⟩ => show h.val = off 0 + 0; omega
  | ⟨1, _⟩ => show l.val = off 1 + l.val; omega

theorem piece_apply {α : Type} (xs : List ((s : Shape) × (s.Idx → α))) (hc : Shape.Concatenates (xs.map (·.1)) S256x2048 0)
    (k : Nat) (hk : k < xs.length) (B : S16x2048.Idx → α) (hxk : xs[k] = ⟨S16x2048, B⟩)
    (hpre : (((xs.take k).map (·.1)).map fun s =>
      if h : s.rank = S256x2048.rank then s.size ((0 : Fin S256x2048.rank).cast h.symm) else 0).sum = k * 16)
    (e : Fin 16) (l : Fin 2048) (R : Fin 256) (hR : R.val = k * 16 + e.val) :
    concatenate S256x2048 0 xs hc (ix2 R l) = B (ix2 e l) :=
  concatenate_apply_piece 0 xs hc (ix2 R l) k hk S16x2048 B hxk rfl (k * 16) hpre (ix2 e l)
    (fun b hb => match b, hb with
      | ⟨0, _⟩, hb => absurd rfl hb
      | ⟨1, _⟩, _ => rfl)
    (by show k * 16 + e.val = R.val; omega)

def stacked (x0 : Vec Ideal S16x2048 .f32) (x1 : Vec Ideal S1x2048 .i32) : FVec Ideal S256x2048 .bf16 :=
  concatenate S256x2048 0
    [⟨S16x2048, k0_pay11 (F := Ideal) x1 x0⟩,
     ⟨S16x2048, k0_pay12 (F := Ideal) x1 x0⟩,
     ⟨S16x2048, k0_pay13 (F := Ideal) x1 x0⟩,
     ⟨S16x2048, k0_pay14 (F := Ideal) x1 x0⟩,
     ⟨S16x2048, k0_pay15 (F := Ideal) x1 x0⟩,
     ⟨S16x2048, k0_pay16 (F := Ideal) x1 x0⟩,
     ⟨S16x2048, k0_pay17 (F := Ideal) x1 x0⟩,
     ⟨S16x2048, k0_pay18 (F := Ideal) x1 x0⟩,
     ⟨S16x2048, mulf (k0_pay10 (F := Ideal) x0) (broadcastTo S16x2048 (k0_pay19 (F := Ideal) x1) broadcasts_S1x2048_S16x2048)⟩,
     ⟨S16x2048, mulf (k0_pay10 (F := Ideal) x0) (broadcastTo S16x2048 (extractStridedSlice S1x2048 ![9, 0] (k0_pay9 (F := Ideal) x1) slices_S16x2048_o9_0_S1x2048) broadcasts_S1x2048_S16x2048)⟩,
     ⟨S16x2048, mulf (k0_pay10 (F := Ideal) x0) (broadcastTo S16x2048 (extractStridedSlice S1x2048 ![10, 0] (k0_pay9 (F := Ideal) x1) slices_S16x2048_o10_0_S1x2048) broadcasts_S1x2048_S16x2048)⟩,
     ⟨S16x2048, mulf (k0_pay10 (F := Ideal) x0) (broadcastTo S16x2048 (extractStridedSlice S1x2048 ![11, 0] (k0_pay9 (F := Ideal) x1) slices_S16x2048_o11_0_S1x2048) broadcasts_S1x2048_S16x2048)⟩,
     ⟨S16x2048, mulf (k0_pay10 (F := Ideal) x0) (broadcastTo S16x2048 (extractStridedSlice S1x2048 ![12, 0] (k0_pay9 (F := Ideal) x1) slices_S16x2048_o12_0_S1x2048) broadcasts_S1x2048_S16x2048)⟩,
     ⟨S16x2048, mulf (k0_pay10 (F := Ideal) x0) (broadcastTo S16x2048 (extractStridedSlice S1x2048 ![13, 0] (k0_pay9 (F := Ideal) x1) slices_S16x2048_o13_0_S1x2048) broadcasts_S1x2048_S16x2048)⟩,
     ⟨S16x2048, mulf (k0_pay10 (F := Ideal) x0) (broadcastTo S16x2048 (extractStridedSlice S1x2048 ![14, 0] (k0_pay9 (F := Ideal) x1) slices_S16x2048_o14_0_S1x2048) broadcasts_S1x2048_S16x2048)⟩,
     ⟨S16x2048, mulf (k0_pay10 (F := Ideal) x0) (broadcastTo S16x2048 (extractStridedSlice S1x2048 ![15, 0] (k0_pay9 (F := Ideal) x1) slices_S16x2048_o15_0_S1x2048) broadcasts_S1x2048_S16x2048)⟩]
    concatenates_S16x2048_S16x2048_S16x2048_S16x2048_S16x2048_S16x2048_S16x2048_S16x2048_S16x2048_S16x2048_S16x2048_S16x2048_S16x2048_S16x2048_S16x2048_S16x2048_S256x2048_d0

set_option maxHeartbeats 4000000 in
/-- Row 16 hi + e of the stack of sixteen masked copies is channel e times the indicator of high digit hi. -/
theorem stacked_apply (x0 : Vec Ideal S16x2048 .f32) (x1 : Vec Ideal S1x2048 .i32) (hi e : Fin 16) (l : Fin 2048)
    (R : Fin 256) (hR : R.val = hi.val * 16 + e.val) :
    stacked x0 x1 (ix2 R l) = x0 (ix2 e l) * k0_pay9 (F := Ideal) x1 (ix2 hi l) := by
  unfold stacked
  obtain ⟨k, hk⟩ := hi
  interval_cases k <;> first
    | exact (piece_apply _ _ _ (by simp) _ rfl rfl e l R hR).trans (masked_apply x0 x1 _ _ _ rfl rfl e l)
    | exact (piece_apply _ _ 8 (by simp) _ rfl rfl e l R hR).trans (masked_apply x0 x1 ![8, 0] slices_S16x2048_o8_0_S1x2048 ⟨8, by decide⟩ rfl rfl e l)

abbrev Ds : DotDims S256x2048 S256x2048 S256x256 := dot_S256x2048_S256x2048_S256x256_1_1_0_0_n_n

theorem lhsS_0 (j : S256x256.Idx) (k : Ds.contr.Idx) : (Ds.lhsIdx j k 0 : ℕ) = j 0 := by
  simp [DotDims.lhsIdx, Ds, dot_S256x2048_S256x2048_S256x256_1_1_0_0_n_n]; rfl
theorem lhsS_1 (j : S256x256.Idx) (k : Ds.contr.Idx) : (Ds.lhsIdx j k 1 : ℕ) = k ⟨0, by decide⟩ := by
  simp [DotDims.lhsIdx, Ds, dot_S256x2048_S256x2048_S256x256_1_1_0_0_n_n]; rfl
theorem rhsS_0 (j : S256x256.Idx) (k : Ds.contr.Idx) : (Ds.rhsIdx j k 0 : ℕ) = j 1 := by
  simp [DotDims.rhsIdx, Ds, dot_S256x2048_S256x2048_S256x256_1_1_0_0_n_n]; rfl
theorem rhsS_1 (j : S256x256.Idx) (k : Ds.contr.Idx) : (Ds.rhsIdx j k 1 : ℕ) = k ⟨0, by decide⟩ := by
  simp [DotDims.rhsIdx, Ds, dot_S256x2048_S256x2048_S256x256_1_1_0_0_n_n]; rfl

theorem lhsS_idx (R lo : Fin 256) (l : Fin 2048) :
    Ds.lhsIdx (ix2 R lo) ((contrEquiv1 Ds 2048 rfl rfl).symm l) = ix2 R l :=
  Shape.idx_ext₂ (by rw [lhsS_0]) (by rw [lhsS_1]; exact contrEquiv1_symm_val Ds 2048 rfl rfl l)
theorem rhsS_idx (R lo : Fin 256) (l : Fin 2048) :
    Ds.rhsIdx (ix2 R lo) ((contrEquiv1 Ds 2048 rfl rfl).symm l) = ix2 lo l :=
  Shape.idx_ext₂ (by rw [rhsS_0]) (by rw [rhsS_1]; exact contrEquiv1_symm_val Ds 2048 rfl rfl l)

/-- One tile adds to entry (16 hi + e, lo) of the sums channel e over its pixels labelled 256 hi + lo. -/
theorem sumStep_apply (x0 : Vec Ideal S16x2048 .f32) (x1 : Vec Ideal S1x2048 .i32) (a : Vec Ideal S256x256 .f32)
    (hi e : Fin 16) (lo : Fin 256) (hx : ∀ l, (lab x1 l).toNat < 4096) :
    k0_pay1 (F := Ideal) (k0_pay8 x1) (k0_pay9 x1) (k0_pay10 x0) (k0_pay11 x1 x0) (k0_pay12 x1 x0) (k0_pay13 x1 x0) (k0_pay14 x1 x0) (k0_pay15 x1 x0) (k0_pay16 x1 x0) (k0_pay17 x1 x0) (k0_pay18 x1 x0) (k0_pay19 x1) a (ix2 (⟨hi.val * 16 + e.val, by omega⟩ : Fin 256) lo)
      = a (ix2 (⟨hi.val * 16 + e.val, by omega⟩ : Fin 256) lo)
        + ∑ l : Fin 2048, (if (lab x1 l).toNat = hi.val * 256 + lo.val then x0 (ix2 e l) else 0) := by
  unfold k0_pay1
  show shapeCast S256x256 (addf a (matmul Ds none (stacked x0 x1) (k0_pay8 (F := Ideal) x1)
    (constant S256x256 .f32 0x00000000#32))) shapeCasts_S256x256_S256x256 (ix2 (⟨hi.val * 16 + e.val, by omega⟩ : Fin 256) lo) = _
  rw [shapeCast_self]
  show a (ix2 (⟨hi.val * 16 + e.val, by omega⟩ : Fin 256) lo) + FloatOps.matmul Ds none (stacked x0 x1) (k0_pay8 (F := Ideal) x1)
    (constant S256x256 .f32 0x00000000#32) (ix2 (⟨hi.val * 16 + e.val, by omega⟩ : Fin 256) lo) = _
  refine congrArg (fun t => a (ix2 (⟨hi.val * 16 + e.val, by omega⟩ : Fin 256) lo) + t) ?_
  refine (Ideal.matmul_constant_zero_apply Ds none _ _ (ix2 (⟨hi.val * 16 + e.val, by omega⟩ : Fin 256) lo)).trans ?_
  rw [← Equiv.sum_comp (contrEquiv1 Ds 2048 rfl rfl).symm]
  refine Finset.sum_congr rfl fun l _ => ?_
  rw [lhsS_idx, rhsS_idx, stacked_apply x0 x1 hi e l _ rfl, pay9_apply x1 hi l (hx l), pay8_apply x1 lo l, mul_assoc,
    ind_mul, mul_ite, mul_one, mul_zero]

theorem zero_cnt (j : S16x256.Idx) : k0_pay5 (F := Ideal) j = 0 := by
  unfold k0_pay5
  show shapeCast S16x256 (broadcast S16x256 (Scalar.ofBits (F := Ideal) .f32 0x00000000#32)) shapeCasts_S16x256_S16x256 j = 0
  rw [shapeCast_self]
  exact Ideal.ofBits_zero_f32
theorem zero_sum (j : S256x256.Idx) : k0_pay6 (F := Ideal) j = 0 := by
  unfold k0_pay6
  show shapeCast S256x256 (broadcast S256x256 (Scalar.ofBits (F := Ideal) .f32 0x00000000#32)) shapeCasts_S256x256_S256x256 j = 0
  rw [shapeCast_self]
  exact Ideal.ofBits_zero_f32

theorem outCnt_apply (v : Vec Ideal S16x256 .f32) (hi : Fin 16) (lo : Fin 256) :
    k0_pay4 (F := Ideal) v (ix3 (0 : Fin 1) hi lo) = v (ix2 hi lo) := by
  unfold k0_pay4
  exact shapeCast_ab_1ab_apply v shapeCasts_S16x256_S1x16x256 (0 : Fin 1) hi lo
theorem outSum_apply (v : Vec Ideal S256x256 .f32) (r : Fin 256) (lo : Fin 256) :
    k0_pay3 (F := Ideal) v (ix3 (0 : Fin 1) r lo) = v (ix2 r lo) := by
  unfold k0_pay3
  exact shapeCast_ab_1ab_apply v shapeCasts_S256x256_S1x256x256 (0 : Fin 1) r lo

end Cert.KernelIdeal.StatsPay

end
-- ==== Proof.Spec.lean ====
import Idealize.ShloMosaic.PureOps.Ideal
import Idealize.ShloMosaic.Lib.IdealHost
import Mathlib.Algebra.BigOperators.Group.Finset.Basic
import Mathlib.Data.EReal.Operations

noncomputable section

namespace Cert.Spec

open Idealize.ShloMosaic

abbrev P : Nat := 1048576

abbrev half : EReal := Ideal.ofBits .f32 0x3F000000#32
abbrev c4096 : EReal := Ideal.ofBits .f32 0x45800000#32

variable (E : Fin 16 → Fin P → EReal) (sg : Fin P → Fin 4096)

def pix (c : Fin 4096) : Finset (Fin P) := Finset.univ.filter fun p => sg p = c

def cnt (c : Fin 4096) : EReal := ∑ _p ∈ pix sg c, (1 : EReal)

def nn (c : Fin 4096) : EReal := max (cnt sg c) 1

def sums (c : Fin 4096) (e : Fin 16) : EReal := ∑ p ∈ pix sg c, E e p

def means (c : Fin 4096) (e : Fin 16) : EReal := Ideal.div (sums E sg c e) (nn sg c)

def hinge (p : Fin P) : EReal := max (((1 : EReal) - ∑ e : Fin 16, means E sg (sg p) e * E e p) - half) 0

def intraByPixel : EReal := Ideal.div (∑ p : Fin P, Ideal.div (hinge E sg p) (nn sg (sg p))) c4096

def intraBySegment : EReal :=
  Ideal.div (∑ c : Fin 4096, Ideal.div (∑ p ∈ pix sg c, hinge E sg p) (nn sg c)) c4096

def pixH (c : Fin 4096) (k : Fin 2) : Finset (Fin P) := (pix sg c).filter fun p => p.val / 524288 = k.val

theorem sum_halves {M : Type} [AddCommMonoid M] (c : Fin 4096) (f : Fin P → M) :
    (∑ p ∈ pixH sg c 0, f p) + (∑ p ∈ pixH sg c 1, f p) = ∑ p ∈ pix sg c, f p := by
  classical
  unfold pixH
  have hdisj : Disjoint ((pix sg c).filter fun p => p.val / 524288 = (0 : Fin 2).val)
      ((pix sg c).filter fun p => p.val / 524288 = (1 : Fin 2).val) := by
    rw [Finset.disjoint_filter]; intro p _ h0 h1; rw [h0] at h1; exact absurd h1 (by decide)
  rw [← Finset.sum_union hdisj]
  refine Finset.sum_congr ?_ fun _ _ => rfl
  ext p
  simp only [Finset.mem_union, Finset.mem_filter]
  constructor
  · rintro (h | h) <;> exact h.1
  · intro h
    have hp : p.val < 1048576 := p.isLt
    have : p.val / 524288 = 0 ∨ p.val / 524288 = 1 := by omega
    rcases this with h' | h'
    · exact Or.inl ⟨h, h'⟩
    · exact Or.inr ⟨h, h'⟩

theorem sum_one_eq_card {ι : Type} (s : Finset ι) : (∑ _i ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

theorem nn_eq_coe (c : Fin 4096) : ∃ y : ℝ, 0 < y ∧ nn sg c = (y : EReal) := by
  refine ⟨max ((pix sg c).card : ℝ) 1, lt_of_lt_of_le one_pos (le_max_right _ _), ?_⟩
  unfold nn cnt
  rw [sum_one_eq_card, show (1 : EReal) = ((1 : ℝ) : EReal) from rfl]
  exact (EReal.coe_strictMono.monotone.map_max).symm

theorem div_sum {ι : Type} (s : Finset ι) (f : ι → EReal) {y : ℝ} (hy : 0 < y) :
    Ideal.div (∑ i ∈ s, f i) (y : EReal) = ∑ i ∈ s, Ideal.div (f i) (y : EReal) := by
  classical
  have hd : ∀ x : EReal, Ideal.div x (y : EReal) = x * ((1 / y : ℝ) : EReal) := fun x => Ideal.div_coe hy.ne' x
  simp only [hd]
  have hr0 : (0 : EReal) ≤ ((1 / y : ℝ) : EReal) := EReal.coe_nonneg.mpr (by positivity)
  have hrt : ((1 / y : ℝ) : EReal) ≠ ⊤ := EReal.coe_ne_top _
  induction s using Finset.induction_on with
  | empty => simp
  | insert a s ha ih =>
    rw [Finset.sum_insert ha, Finset.sum_insert ha, EReal.right_distrib_of_nonneg_of_ne_top hr0 hrt, ih]

theorem intra_eq : intraByPixel E sg = intraBySegment E sg := by
  unfold intraByPixel intraBySegment
  refine congrArg (fun x => Ideal.div x c4096) ?_
  have h1 : ∀ c : Fin 4096, Ideal.div (∑ p ∈ pix sg c, hinge E sg p) (nn sg c)
      = ∑ p ∈ pix sg c, Ideal.div (hinge E sg p) (nn sg (sg p)) := by
    intro c
    obtain ⟨y, hy, hn⟩ := nn_eq_coe sg c
    rw [hn, div_sum _ _ hy]
    refine Finset.sum_congr rfl fun p hp => ?_
    have hpc : sg p = c := (Finset.mem_filter.mp hp).2
    rw [hpc, hn]
  simp only [h1]
  unfold pix
  exact (Finset.sum_fiberwise Finset.univ sg fun p => Ideal.div (hinge E sg p) (nn sg (sg p))).symm

end Cert.Spec

end
-- ==== Proof.TileSum.lean ====
import proofs.«415856_j56882546868663_3_alg».proof.Proof.Spec
import Mathlib.Algebra.BigOperators.Fin
import Mathlib.Logic.Equiv.Fin.Basic

noncomputable section

namespace Cert.TileSum

open Cert.Spec Finset

variable {M : Type} [AddCommMonoid M]

def pixT (t : Fin 512) (l : Fin 2048) : Fin P := ⟨t.val * 2048 + l.val, by have := t.isLt; have := l.isLt; show _ < 1048576; omega⟩

def tileOf (k : Fin 2) (q : Fin 256) : Fin 512 := ⟨k.val * 256 + q.val, by have := k.isLt; have := q.isLt; omega⟩

def pixOf (k : Fin 2) (q : Fin 256) (l : Fin 2048) : Fin P := pixT (tileOf k q) l

theorem pixOf_val (k : Fin 2) (q : Fin 256) (l : Fin 2048) : (pixOf k q l).val = (k.val * 256 + q.val) * 2048 + l.val := rfl

theorem pixOf_half (k : Fin 2) (q : Fin 256) (l : Fin 2048) : (pixOf k q l).val / 524288 = k.val := by
  rw [pixOf_val]; have := k.isLt; have := q.isLt; have := l.isLt; omega

theorem sum_pixels_tiles (g : Fin P → M) : ∑ p : Fin P, g p = ∑ t : Fin 512, ∑ l : Fin 2048, g (pixT t l) := by
  rw [← Fintype.sum_prod_type']
  symm
  refine Fintype.sum_equiv (finProdFinEquiv.trans (finCongr (show 512 * 2048 = P from rfl))) _ _ ?_
  rintro ⟨t, l⟩
  refine congrArg g (Fin.ext ?_)
  simp only [Equiv.trans_apply, finProdFinEquiv_apply_val, finCongr_apply, Fin.val_cast]
  show t.val * 2048 + l.val = l.val + 2048 * t.val
  omega

theorem sum_tiles_rows (h : Fin 512 → M) : ∑ t : Fin 512, h t = ∑ k : Fin 2, ∑ q : Fin 256, h (tileOf k q) := by
  rw [← Fintype.sum_prod_type']
  symm
  refine Fintype.sum_equiv (finProdFinEquiv.trans (finCongr (show 2 * 256 = 512 from rfl))) _ _ ?_
  rintro ⟨k, q⟩
  refine congrArg h (Fin.ext ?_)
  simp only [Equiv.trans_apply, finProdFinEquiv_apply_val, finCongr_apply, Fin.val_cast]
  show k.val * 256 + q.val = q.val + 256 * k.val
  omega

theorem tiles_eq_pixH (sg : Fin P → Fin 4096) (c : Fin 4096) (k : Fin 2) (f : Fin P → M) :
    ∑ q : Fin 256, ∑ l : Fin 2048, (if sg (pixOf k q l) = c then f (pixOf k q l) else 0) = ∑ p ∈ pixH sg c k, f p := by
  classical
  have hfil : pixH sg c k = Finset.univ.filter fun p : Fin P => sg p = c ∧ p.val / 524288 = k.val := by
    unfold pixH pix; rw [Finset.filter_filter]
  rw [hfil, Finset.sum_filter, sum_pixels_tiles, sum_tiles_rows, Fin.sum_univ_two]
  have hrow : ∀ k' : Fin 2, (∑ q : Fin 256, ∑ l : Fin 2048,
      (if sg (pixT (tileOf k' q) l) = c ∧ (pixT (tileOf k' q) l).val / 524288 = k.val then f (pixT (tileOf k' q) l) else 0))
      = if k' = k then ∑ q : Fin 256, ∑ l : Fin 2048, (if sg (pixOf k' q l) = c then f (pixOf k' q l) else 0) else 0 := by
    intro k'
    by_cases hk : k' = k
    · rw [if_pos hk]
      refine Finset.sum_congr rfl fun q _ => Finset.sum_congr rfl fun l _ => ?_
      have h2 : (pixT (tileOf k' q) l).val / 524288 = k.val := hk ▸ pixOf_half k' q l
      simp only [h2, and_true]; rfl
    · rw [if_neg hk]
      refine Finset.sum_eq_zero fun q _ => Finset.sum_eq_zero fun l _ => ?_
      have h2 : ¬ (pixT (tileOf k' q) l).val / 524288 = k.val := by
        rw [show (pixT (tileOf k' q) l).val / 524288 = k'.val from pixOf_half k' q l]
        exact fun h => hk (Fin.ext h)
      simp only [h2, and_false, if_false]
  rw [hrow 0, hrow 1]
  fin_cases k
  · simp
  · simp

/-- A sequence that restarts at every multiple of 256 and otherwise adds `f` to its predecessor holds its row's partial sum. -/
theorem rowAcc {N : ℕ} (a : (n : ℕ) → n < N → M) (f : ℕ → M)
    (hA : ∀ n hn, n % 256 = 0 → a n hn = f n)
    (hB : ∀ n (hn : n + 1 < N), ¬(n + 1) % 256 = 0 → a (n + 1) hn = a n (Nat.lt_of_succ_lt hn) + f (n + 1)) :
    ∀ n hn, a n hn = ∑ j ∈ Finset.range (n % 256 + 1), f (n / 256 * 256 + j)
  | 0, hn => by rw [hA 0 hn rfl]; exact (Finset.sum_range_one _).symm
  | n + 1, hn => by
    by_cases h0 : (n + 1) % 256 = 0
    · rw [hA _ hn h0, h0, zero_add, Finset.sum_range_one, add_zero, Nat.div_mul_cancel (Nat.dvd_of_mod_eq_zero h0)]
    · rw [hB n hn h0, rowAcc a f hA hB n _, show (n + 1) % 256 = n % 256 + 1 by omega, show (n + 1) / 256 = n / 256 by omega,
        Finset.sum_range_succ _ (n % 256 + 1), show n / 256 * 256 + (n % 256 + 1) = n + 1 by omega]

end Cert.TileSum

end
-- ==== Proof.StatsValue.lean ====
import proofs.«415856_j56882546868663_3_alg».proof.Proof.StatsFrame
import proofs.«415856_j56882546868663_3_alg».proof.Proof.StatsPay
import proofs.«415856_j56882546868663_3_alg».proof.Proof.TileSum

noncomputable section

namespace Cert.KernelIdeal.StatsValue

open Cert.KernelIdeal Cert.KernelIdeal.Gen Cert.KernelIdeal.Stats
open Idealize.ShloMosaic Idealize.ShloMosaic.TcCoe Idealize.ShloMosaic.ValueIdx Idealize.ShloMosaic.Tactic
open Idealize.ShloMosaic.Pipeline (Dat)

section Pieces
variable {F : FTy → Type} [FloatOps F]

/-- One tile's update of the counts, and of the sums. -/
abbrev cntUp (x1 : Vec F S1x2048 .i32) (a : Vec F S16x256 .f32) : Vec F S16x256 .f32 := k0_pay2 (k0_pay8 x1) (k0_pay9 x1) a
abbrev sumUp (x0 : Vec F S16x2048 .f32) (x1 : Vec F S1x2048 .i32) (a : Vec F S256x256 .f32) : Vec F S256x256 .f32 :=
  k0_pay1 (k0_pay8 x1) (k0_pay9 x1) (k0_pay10 x0) (k0_pay11 x1 x0) (k0_pay12 x1 x0) (k0_pay13 x1 x0) (k0_pay14 x1 x0) (k0_pay15 x1 x0) (k0_pay16 x1 x0) (k0_pay17 x1 x0) (k0_pay18 x1 x0) (k0_pay19 x1) a

variable (c : Dev nD) (i : grid0.Coords) (A : Args)
variable (x0 : Vec F S16x2048 .f32) (x1 : Vec F S1x2048 .i32) (xs0 : Vec F S16x256 .f32) (xs1 : Vec F S256x256 .f32)

theorem hz2 : (![0, 0] : Fin 2 → Nat) = fun _ => 0 := funext fun a => by fin_cases a <;> rfl
theorem hz3 : (![0, 0, 0] : Fin 3 → Nat) = fun _ => 0 := funext fun a => by fin_cases a <;> rfl

/-- Each buffer is stored into once, through its whole rectangle: what a run leaves in it is that store's payload. -/
theorem piecesA (hc0 : cond_0 i) (hc1 : ¬cond_1 i) :
    View.canon (kernelRun_A c i A hc0 hc1 x0 x1).1 = cntUp x1 k0_pay5 ∧ View.canon (kernelRun_A c i A hc0 hc1 x0 x1).2.1 = sumUp x0 x1 k0_pay6 := by
  unfold kernelRun_A
  dsimp only
  sl_unfold_words
  rw [View.canon_cons_unit_zero (S := S16x256) hz2, View.readCov_unit_zero (S := S16x256) _ hz2, View.canon_cons_unit_zero (S := S256x256) hz2, View.readCov_unit_zero (S := S256x256) _ hz2]
  simp only [View.readAt_eq_ld, A.h2.read_unread, A.h3.read_unread, A.h6.read_unread, A.h7.read_unread, View.ld_unit_zero (S := S16x2048) hz2, View.ld_unit_zero (S := S1x2048) hz2, View.ld_unit_zero (S := S16x256) hz2, View.ld_unit_zero (S := S256x256) hz2, and_self]

theorem piecesB (hc0 : ¬cond_0 i) (hc1 : ¬cond_1 i) :
    View.canon (kernelRun_B c i A hc0 hc1 x0 x1 xs0 xs1).1 = cntUp x1 xs0 ∧ View.canon (kernelRun_B c i A hc0 hc1 x0 x1 xs0 xs1).2.1 = sumUp x0 x1 xs1 := by
  unfold kernelRun_B
  dsimp only
  sl_unfold_words
  rw [View.canon_unit_zero (S := S16x256) hz2, View.canon_unit_zero (S := S256x256) hz2]
  simp only [View.readAt_eq_ld, A.h2.read_unread, A.h3.read_unread, A.h6.read_unread, A.h7.read_unread, View.ld_unit_zero (S := S16x2048) hz2, View.ld_unit_zero (S := S1x2048) hz2, View.ld_unit_zero (S := S16x256) hz2, View.ld_unit_zero (S := S256x256) hz2, and_self]

theorem piecesC (hc0 : ¬cond_0 i) (hc1 : cond_1 i) :
    View.canon (kernelRun_C c i A hc0 hc1 x0 x1 xs0 xs1).1 = k0_pay4 (View.canon (kernelRun_C c i A hc0 hc1 x0 x1 xs0 xs1).2.2.1) ∧ View.canon (kernelRun_C c i A hc0 hc1 x0 x1 xs0 xs1).2.1 = k0_pay3 (View.canon (kernelRun_C c i A hc0 hc1 x0 x1 xs0 xs1).2.2.2.1)
      ∧ View.canon (kernelRun_C c i A hc0 hc1 x0 x1 xs0 xs1).2.2.1 = cntUp x1 xs0 ∧ View.canon (kernelRun_C c i A hc0 hc1 x0 x1 xs0 xs1).2.2.2.1 = sumUp x0 x1 xs1 := by
  unfold kernelRun_C
  dsimp only
  sl_unfold_words
  rw [View.canon_unit_zero (S := S1x16x256) hz3, View.readCov_unit_zero (S := S16x256) _ hz2, View.canon_unit_zero (S := S1x256x256) hz3, View.readCov_unit_zero (S := S256x256) _ hz2, View.canon_unit_zero (S := S16x256) hz2, View.canon_unit_zero (S := S256x256) hz2]
  simp only [View.readAt_eq_ld, A.h2.read_unread, A.h3.read_unread, A.h6.read_unread, A.h7.read_unread, View.ld_unit_zero (S := S16x2048) hz2, View.ld_unit_zero (S := S1x2048) hz2, View.ld_unit_zero (S := S16x256) hz2, View.ld_unit_zero (S := S256x256) hz2, and_self]

end Pieces

attribute [local irreducible] kernelRun_A kernelRun_B kernelRun_C

variable (V : (c : Dev nD) → (b : Ref sig .tc) → Buf (Elt Ideal) ((c : Thread nD τ).loc b)) (c : Dev nD)
variable (E : Fin 16 → Fin 1048576 → EReal) (sg : Fin 1048576 → Fin 4096)
variable (hE : ∀ (e : Fin 16) (p : Fin 1048576), (V c main_v0 : FVec Ideal S16x1048576 .f32) (ix2 e p) = E e p)
variable (hsg : ∀ p : Fin 1048576, ((V c main_v1 : IVec S1x1048576 32) (ix2 (0 : Fin 1) p)).toNat = (sg p).val)

def tl (t : Fin cfg0.N) : Fin 512 := ⟨t.val, lt_of_lt_of_eq t.isLt N_0⟩

abbrev eblk (t : Fin cfg0.N) : Vec Ideal S16x2048 .f32 := iblk V c 0 t
abbrev sblk (t : Fin cfg0.N) : Vec Ideal S1x2048 .i32 := iblk V c 1 t

theorem idx_in : ∀ t : Fin cfg0.N, win0_0.index t 0 = 0 ∧ win0_0.index t 1 = t.val ∧ win0_1.index t 0 = 0 ∧ win0_1.index t 1 = t.val :=
  (by decide +kernel : ∀ t : Fin grid0.N, win0_0.index t 0 = 0 ∧ win0_0.index t 1 = t.val ∧ win0_1.index t 0 = 0 ∧ win0_1.index t 1 = t.val)

include hE in
theorem eblk_eq (t : Fin cfg0.N) (e : Fin 16) (l : Fin 2048) : eblk V c t (ix2 e l) = E e (Cert.TileSum.pixT (tl t) l) := by
  obtain ⟨h0, h1, -, -⟩ := idx_in t
  rw [← hE]
  unfold eblk iblk
  rw [View.read_apply]
  show V c main_v0 _ = V c main_v0 _
  congr 1
  funext a
  apply Fin.ext
  match a with
  | ⟨0, _⟩ => show win0_0.index t 0 * 16 + 1 * e.val = e.val; rw [h0]; omega
  | ⟨1, _⟩ => show win0_0.index t 1 * 2048 + 1 * l.val = t.val * 2048 + l.val; rw [h1]; omega

include hsg in
theorem lab_eq (t : Fin cfg0.N) (l : Fin 2048) : (StatsPay.lab (sblk V c t) l).toNat = (sg (Cert.TileSum.pixT (tl t) l)).val := by
  obtain ⟨-, -, h0, h1⟩ := idx_in t
  rw [← hsg]
  show (sblk V c t (ix2 (0 : Fin 1) l)).toNat = _
  unfold sblk iblk
  rw [View.read_apply]
  refine congrArg BitVec.toNat ?_
  show V c main_v1 _ = V c main_v1 _
  congr 1
  funext a
  apply Fin.ext
  match a with
  | ⟨0, _⟩ => show win0_1.index t 0 * 1 + 1 * 0 = 0; rw [h0]
  | ⟨1, _⟩ => show win0_1.index t 1 * 2048 + 1 * l.val = t.val * 2048 + l.val; rw [h1]; omega

include hsg in
theorem lab_lt (t : Fin cfg0.N) (l : Fin 2048) : (StatsPay.lab (sblk V c t) l).toNat < 4096 := by
  rw [lab_eq V c sg hsg]; exact (sg _).isLt

def sumN (n : ℕ) (hi e : Fin 16) (lo : Fin 256) : EReal :=
  if h : n < 512 then ∑ l : Fin 2048, (if (sg (Cert.TileSum.pixT ⟨n, h⟩ l)).val = hi.val * 256 + lo.val then E e (Cert.TileSum.pixT ⟨n, h⟩ l) else 0) else 0

def cntN (n : ℕ) (hi : Fin 16) (lo : Fin 256) : EReal := sumN (fun _ _ => 1) sg n hi 0 lo

include hsg in
theorem cnt_tile (t : Fin cfg0.N) (hi : Fin 16) (lo : Fin 256) :
    (∑ l : Fin 2048, (if (StatsPay.lab (sblk V c t) l).toNat = hi.val * 256 + lo.val then (1 : EReal) else 0)) = cntN sg t.val hi lo := by
  have h : t.val < 512 := (tl t).isLt
  unfold cntN sumN
  rw [dif_pos h]
  refine Finset.sum_congr rfl fun l _ => ?_
  rw [lab_eq V c sg hsg]
  rfl

include hE hsg in
theorem sum_tile (t : Fin cfg0.N) (hi e : Fin 16) (lo : Fin 256) :
    (∑ l : Fin 2048, (if (StatsPay.lab (sblk V c t) l).toNat = hi.val * 256 + lo.val then eblk V c t (ix2 e l) else 0)) = sumN E sg t.val hi e lo := by
  have h : t.val < 512 := (tl t).isLt
  unfold sumN
  rw [dif_pos h]
  refine Finset.sum_congr rfl fun l _ => ?_
  rw [lab_eq V c sg hsg, eblk_eq V c E hE]
  rfl

theorem acc_step (t : Fin cfg0.N) (s : Vec Ideal S16x256 .f32 × Vec Ideal S256x256 .f32) :
    (step V c t s).2 = (cntUp (sblk V c t) (if t.val % 256 = 0 then k0_pay5 (F := Ideal) else s.1), sumUp (eblk V c t) (sblk V c t) (if t.val % 256 = 0 then k0_pay6 (F := Ideal) else s.2)) := by
  unfold step
  by_cases h0 : t.val % 256 = 0
  · have p := piecesA c (grid0.coords t) (argsAt t) (eblk V c t) (sblk V c t) ((hcond_0 t).mpr h0) (mt (hcond_1 t).mp (by omega))
    rw [dif_pos h0, if_pos h0, if_pos h0]
    exact Prod.ext p.1 p.2
  · rw [dif_neg h0, if_neg h0, if_neg h0]
    by_cases h1 : t.val % 256 = 255
    · have p := piecesC c (grid0.coords t) (argsAt t) (eblk V c t) (sblk V c t) s.1 s.2 (mt (hcond_0 t).mp h0) ((hcond_1 t).mpr h1)
      rw [dif_pos h1]
      exact Prod.ext p.2.2.1 p.2.2.2
    · have p := piecesB c (grid0.coords t) (argsAt t) (eblk V c t) (sblk V c t) s.1 s.2 (mt (hcond_0 t).mp h0) (mt (hcond_1 t).mp h1)
      rw [dif_neg h1]
      exact Prod.ext p.1 p.2

theorem out_step (t : Fin cfg0.N) (h1 : t.val % 256 = 255) (s : Vec Ideal S16x256 .f32 × Vec Ideal S256x256 .f32) :
    (step V c t s).1 = (k0_pay4 (step V c t s).2.1, k0_pay3 (step V c t s).2.2) := by
  have h0 : ¬t.val % 256 = 0 := by omega
  have p := piecesC c (grid0.coords t) (argsAt t) (eblk V c t) (sblk V c t) s.1 s.2 (mt (hcond_0 t).mp h0) ((hcond_1 t).mpr h1)
  unfold step
  rw [dif_neg h0, dif_pos h1]
  exact Prod.ext p.1 p.2.1

include hsg in
/-- After point `n` the counts hold the contributions of its row's tiles up to it. -/
theorem cnt_inv (n : ℕ) (hn : n < cfg0.N) (hi : Fin 16) (lo : Fin 256) :
    (accAt V c (n + 1) hn).1 (ix2 hi lo) = ∑ j ∈ Finset.range (n % 256 + 1), cntN sg (n / 256 * 256 + j) hi lo :=
  Cert.TileSum.rowAcc (fun n hn => (accAt V c (n + 1) hn).1 (ix2 hi lo)) (fun n => cntN sg n hi lo)
    (fun n hn h0 => by
      show (step V c ⟨n, hn⟩ _).2.1 (ix2 hi lo) = _
      rw [acc_step]; dsimp only [cntUp]
      rw [if_pos h0, StatsPay.cntStep_apply _ _ _ _ (lab_lt V c sg hsg ⟨n, hn⟩), StatsPay.zero_cnt, zero_add, cnt_tile V c sg hsg])
    (fun n hn h0 => by
      show (step V c ⟨n + 1, hn⟩ _).2.1 (ix2 hi lo) = _
      rw [acc_step]; dsimp only [cntUp]
      rw [if_neg h0, StatsPay.cntStep_apply _ _ _ _ (lab_lt V c sg hsg ⟨n + 1, hn⟩), cnt_tile V c sg hsg])
    n hn

include hE hsg in
theorem sum_inv (n : ℕ) (hn : n < cfg0.N) (hi e : Fin 16) (lo : Fin 256) :
    (accAt V c (n + 1) hn).2 (ix2 (⟨hi.val * 16 + e.val, by omega⟩ : Fin 256) lo)
      = ∑ j ∈ Finset.range (n % 256 + 1), sumN E sg (n / 256 * 256 + j) hi e lo :=
  Cert.TileSum.rowAcc (fun n hn => (accAt V c (n + 1) hn).2 (ix2 (⟨hi.val * 16 + e.val, by omega⟩ : Fin 256) lo)) (fun n => sumN E sg n hi e lo)
    (fun n hn h0 => by
      show (step V c ⟨n, hn⟩ _).2.2 (ix2 _ lo) = _
      rw [acc_step]; dsimp only [sumUp]
      rw [if_pos h0, StatsPay.sumStep_apply _ _ _ _ _ _ (lab_lt V c sg hsg ⟨n, hn⟩), StatsPay.zero_sum, zero_add, sum_tile V c E sg hE hsg])
    (fun n hn h0 => by
      show (step V c ⟨n + 1, hn⟩ _).2.2 (ix2 _ lo) = _
      rw [acc_step]; dsimp only [sumUp]
      rw [if_neg h0, StatsPay.sumStep_apply _ _ _ _ _ _ (lab_lt V c sg hsg ⟨n + 1, hn⟩), sum_tile V c E sg hE hsg])
    n hn

theorem cnt_out (t : Fin cfg0.N) (h1 : t.val % 256 = 255) :
    (Stats.dat V c).after 2 t = k0_pay4 (F := Ideal) (accAt V c (t.val + 1) t.isLt).1 :=
  congrArg Prod.fst (out_step V c t h1 _)

theorem sum_out (t : Fin cfg0.N) (h1 : t.val % 256 = 255) :
    (Stats.dat V c).after 3 t = k0_pay3 (F := Ideal) (accAt V c (t.val + 1) t.isLt).2 :=
  congrArg Prod.snd (out_step V c t h1 _)

theorem outCnt_at (v : Vec Ideal S16x256 .f32) (j : S1x16x256.Idx) : k0_pay4 (F := Ideal) v j = v (ix2 (j 1) (j 2)) := by
  obtain ⟨a, b, d, rfl⟩ : ∃ (a : Fin 1) (b : Fin 16) (d : Fin 256), j = ix3 a b d := ⟨_, _, _, eq_ix3 j⟩
  obtain rfl : a = 0 := Subsingleton.elim _ _
  exact StatsPay.outCnt_apply v b d

theorem outSum_at (v : Vec Ideal S256x256 .f32) (j : S1x256x256.Idx) : k0_pay3 (F := Ideal) v j = v (ix2 (j 1) (j 2)) := by
  obtain ⟨a, b, d, rfl⟩ : ∃ (a : Fin 1) (b d : Fin 256), j = ix3 a b d := ⟨_, _, _, eq_ix3 j⟩
  obtain rfl : a = 0 := Subsingleton.elim _ _
  exact StatsPay.outSum_apply v b d

theorem idx_out : ∀ t : Fin cfg0.N, win0_2.index t 0 = t.val / 256 ∧ win0_2.index t 1 = 0 ∧ win0_2.index t 2 = 0
    ∧ win0_3.index t 0 = t.val / 256 ∧ win0_3.index t 1 = 0 ∧ win0_3.index t 2 = 0 :=
  (by decide +kernel : ∀ t : Fin grid0.N, win0_2.index t 0 = t.val / 256 ∧ win0_2.index t 1 = 0 ∧ win0_2.index t 2 = 0
    ∧ win0_3.index t 0 = t.val / 256 ∧ win0_3.index t 1 = 0 ∧ win0_3.index t 2 = 0)

def gcnt (k : ℕ) (hi : Fin 16) (lo : Fin 256) : EReal := ∑ j ∈ Finset.range 256, cntN sg (k * 256 + j) hi lo

def Gcnt : FVec Ideal S2x16x256 .f32 := fun i => gcnt sg (i 0).val (i 1) (i 2)

def gsum (k : ℕ) (r : Fin 256) (lo : Fin 256) : EReal :=
  ∑ j ∈ Finset.range 256, sumN E sg (k * 256 + j) (⟨r.val / 16, by omega⟩ : Fin 16) (⟨r.val % 16, by omega⟩ : Fin 16) lo

def Gsum : FVec Ideal S2x256x256 .f32 := fun i => gsum E sg (i 0).val (i 1) (i 2)

include hsg in
theorem cnt_last (t : Fin cfg0.N) (h1 : t.val % 256 = 255) (hi : Fin 16) (lo : Fin 256) :
    (accAt V c (t.val + 1) t.isLt).1 (ix2 hi lo) = gcnt sg (t.val / 256) hi lo := by
  rw [cnt_inv V c sg hsg t.val t.isLt hi lo, h1]
  rfl

include hE hsg in
theorem sum_last (t : Fin cfg0.N) (h1 : t.val % 256 = 255) (r : Fin 256) (lo : Fin 256) :
    (accAt V c (t.val + 1) t.isLt).2 (ix2 r lo) = gsum E sg (t.val / 256) r lo := by
  have hr : r.val < 256 := r.isLt
  have er : r = ⟨(⟨r.val / 16, by omega⟩ : Fin 16).val * 16 + (⟨r.val % 16, by omega⟩ : Fin 16).val, by dsimp only; omega⟩ :=
    Fin.ext (by dsimp only; omega)
  conv_lhs => rw [er]
  rw [sum_inv V c E sg hE hsg t.val t.isLt, h1]
  rfl

include hsg in
theorem cnt_flushed (t : Fin cfg0.N) (hf : (cfg0.win 2).flush t = true) :
    (Stats.dat V c).flushed 2 t = ((cfg0.win 2).blk t).view.read (Elt Ideal) (Gcnt sg) := by
  have h1 : t.val % 256 = 255 := (flush0_2 t).mp hf
  have hk : t.val / 256 < 2 := by have : t.val < 512 := (tl t).isLt; omega
  obtain ⟨i0, i1, i2, -, -, -⟩ := idx_out t
  show (cfg0.win 2).cut (grid0.coords t) ((Stats.dat V c).after 2 t) = _
  rw [cnt_out V c t h1]
  refine funext fun (y : S1x16x256.Idx) => ?_
  rw [View.read_apply]
  show k0_pay4 (F := Ideal) _ y = Gcnt sg _
  rw [outCnt_at, cnt_last V c sg hsg t h1 (y 1) (y 2)]
  have h0 : (y 0).val < 1 := (y 0).isLt
  have key : gcnt sg (t.val / 256) (y 1) (y 2) = Gcnt sg (ix3 (⟨t.val / 256, hk⟩ : Fin 2) (y 1) (y 2)) := rfl
  rw [key]
  congr 1
  funext a
  apply Fin.ext
  match a with
  | ⟨0, _⟩ => show t.val / 256 = win0_2.index t 0 * 1 + 1 * (y 0).val; rw [i0]; omega
  | ⟨1, _⟩ => show (y 1).val = win0_2.index t 1 * 16 + 1 * (y 1).val; rw [i1]; omega
  | ⟨2, _⟩ => show (y 2).val = win0_2.index t 2 * 256 + 1 * (y 2).val; rw [i2]; omega

include hE hsg in
theorem sum_flushed (t : Fin cfg0.N) (hf : (cfg0.win 3).flush t = true) :
    (Stats.dat V c).flushed 3 t = ((cfg0.win 3).blk t).view.read (Elt Ideal) (Gsum E sg) := by
  have h1 : t.val % 256 = 255 := (flush0_3 t).mp hf
  have hk : t.val / 256 < 2 := by have : t.val < 512 := (tl t).isLt; omega
  obtain ⟨-, -, -, i0, i1, i2⟩ := idx_out t
  show (cfg0.win 3).cut (grid0.coords t) ((Stats.dat V c).after 3 t) = _
  rw [sum_out V c t h1]
  refine funext fun (y : S1x256x256.Idx) => ?_
  rw [View.read_apply]
  show k0_pay3 (F := Ideal) _ y = Gsum E sg _
  rw [outSum_at, sum_last V c E sg hE hsg t h1 (y 1) (y 2)]
  have h0 : (y 0).val < 1 := (y 0).isLt
  have key : gsum E sg (t.val / 256) (y 1) (y 2) = Gsum E sg (ix3 (⟨t.val / 256, hk⟩ : Fin 2) (y 1) (y 2)) := rfl
  rw [key]
  congr 1
  funext a
  apply Fin.ext
  match a with
  | ⟨0, _⟩ => show t.val / 256 = win0_3.index t 0 * 1 + 1 * (y 0).val; rw [i0]; omega
  | ⟨1, _⟩ => show (y 1).val = win0_3.index t 1 * 256 + 1 * (y 1).val; rw [i1]; omega
  | ⟨2, _⟩ => show (y 2).val = win0_3.index t 2 * 256 + 1 * (y 2).val; rw [i2]; omega

theorem cnt_cover (i : ((cfg0.win 2).arr.view.loc (c.tc : Thread nD τ)).2.ty.Idx) :
    ∃ t : Fin cfg0.N, (cfg0.win 2).flush t = true ∧ i ∈ ((cfg0.win 2).blk t).view.set := by
  have h0 : (i 0 : ℕ) < 2 := (i 0).isLt
  have h1 : (i 1 : ℕ) < 16 := (i 1).isLt
  have h2 : (i 2 : ℕ) < 256 := (i 2).isLt
  obtain ⟨t, ht⟩ : ∃ t : Fin cfg0.N, t.val = (i 0 : ℕ) * 256 + 255 :=
    ⟨⟨(i 0 : ℕ) * 256 + 255, by rw [show cfg0.N = 512 from N_0]; omega⟩, rfl⟩
  obtain ⟨i0, i1, i2, -, -, -⟩ := idx_out t
  refine ⟨t, (flush0_2 t).mpr (by omega), ?_⟩
  show i ∈ ((View.whole main_v2_0).slice (win0_2.rect t)).set
  rw [View.set_slice_whole, Rect.mem_set_unit]
  intro a
  match a with
  | ⟨0, _⟩ => show win0_2.index t 0 * 1 ≤ (i 0 : ℕ) ∧ (i 0 : ℕ) < win0_2.index t 0 * 1 + 1; rw [i0]; omega
  | ⟨1, _⟩ => show win0_2.index t 1 * 16 ≤ (i 1 : ℕ) ∧ (i 1 : ℕ) < win0_2.index t 1 * 16 + 16; rw [i1]; omega
  | ⟨2, _⟩ => show win0_2.index t 2 * 256 ≤ (i 2 : ℕ) ∧ (i 2 : ℕ) < win0_2.index t 2 * 256 + 256; rw [i2]; omega

theorem sum_cover (i : ((cfg0.win 3).arr.view.loc (c.tc : Thread nD τ)).2.ty.Idx) :
    ∃ t : Fin cfg0.N, (cfg0.win 3).flush t = true ∧ i ∈ ((cfg0.win 3).blk t).view.set := by
  have h0 : (i 0 : ℕ) < 2 := (i 0).isLt
  have h1 : (i 1 : ℕ) < 256 := (i 1).isLt
  have h2 : (i 2 : ℕ) < 256 := (i 2).isLt
  obtain ⟨t, ht⟩ : ∃ t : Fin cfg0.N, t.val = (i 0 : ℕ) * 256 + 255 :=
    ⟨⟨(i 0 : ℕ) * 256 + 255, by rw [show cfg0.N = 512 from N_0]; omega⟩, rfl⟩
  obtain ⟨-, -, -, i0, i1, i2⟩ := idx_out t
  refine ⟨t, (flush0_3 t).mpr (by omega), ?_⟩
  show i ∈ ((View.whole main_v2_1).slice (win0_3.rect t)).set
  rw [View.set_slice_whole, Rect.mem_set_unit]
  intro a
  match a with
  | ⟨0, _⟩ => show win0_3.index t 0 * 1 ≤ (i 0 : ℕ) ∧ (i 0 : ℕ) < win0_3.index t 0 * 1 + 1; rw [i0]; omega
  | ⟨1, _⟩ => show win0_3.index t 1 * 256 ≤ (i 1 : ℕ) ∧ (i 1 : ℕ) < win0_3.index t 1 * 256 + 256; rw [i1]; omega
  | ⟨2, _⟩ => show win0_3.index t 2 * 256 ≤ (i 2 : ℕ) ∧ (i 2 : ℕ) < win0_3.index t 2 * 256 + 256; rw [i2]; omega

theorem sumN_row (k : Fin 2) (q : Fin 256) (hi e : Fin 16) (lo : Fin 256) :
    sumN E sg (k.val * 256 + q.val) hi e lo
      = ∑ l : Fin 2048, (if sg (Cert.TileSum.pixOf k q l) = (⟨hi.val * 256 + lo.val, by omega⟩ : Fin 4096) then E e (Cert.TileSum.pixOf k q l) else 0) := by
  have h : k.val * 256 + q.val < 512 := by have := k.isLt; have := q.isLt; omega
  unfold sumN
  rw [dif_pos h]
  refine Finset.sum_congr rfl fun l _ => ?_
  show (if (sg (Cert.TileSum.pixOf k q l)).val = hi.val * 256 + lo.val then E e (Cert.TileSum.pixOf k q l) else 0)
    = if sg (Cert.TileSum.pixOf k q l) = (⟨hi.val * 256 + lo.val, _⟩ : Fin 4096) then E e (Cert.TileSum.pixOf k q l) else 0
  by_cases hc : (sg (Cert.TileSum.pixOf k q l)).val = hi.val * 256 + lo.val
  · rw [if_pos hc, if_pos (Fin.ext hc)]
  · rw [if_neg hc, if_neg (fun h' => hc (congrArg Fin.val h'))]

theorem cntN_row (k : Fin 2) (q : Fin 256) (hi : Fin 16) (lo : Fin 256) :
    cntN sg (k.val * 256 + q.val) hi lo
      = ∑ l : Fin 2048, (if sg (Cert.TileSum.pixOf k q l) = (⟨hi.val * 256 + lo.val, by omega⟩ : Fin 4096) then (fun _ => (1 : EReal)) (Cert.TileSum.pixOf k q l) else 0) :=
  sumN_row (fun _ _ => 1) sg k q hi 0 lo

include hE hsg in
theorem counts_arr (k : Fin 2) (hi : Fin 16) (lo : Fin 256) :
    ((Stats.dat V c).arrAt 2 cfg0.N : FVec Ideal S2x16x256 .f32) (ix3 k hi lo)
      = ∑ _p ∈ Cert.Spec.pixH sg (⟨hi.val * 256 + lo.val, by omega⟩ : Fin 4096) k, (1 : EReal) := by
  rw [(Stats.dat V c).arrAt_eq_of_cover 2 (Gcnt sg) (cnt_flushed V c sg hsg) (cnt_cover c)]
  show gcnt sg k.val hi lo = _
  unfold gcnt
  rw [Finset.sum_range]
  refine Eq.trans ?_ (Cert.TileSum.tiles_eq_pixH sg _ k fun _ => (1 : EReal))
  exact Finset.sum_congr rfl fun q _ => cntN_row sg k q hi lo

include hE hsg in
theorem sums_arr (k : Fin 2) (hi e : Fin 16) (lo : Fin 256) :
    ((Stats.dat V c).arrAt 3 cfg0.N : FVec Ideal S2x256x256 .f32) (ix3 k (⟨hi.val * 16 + e.val, by omega⟩ : Fin 256) lo)
      = ∑ p ∈ Cert.Spec.pixH sg (⟨hi.val * 256 + lo.val, by omega⟩ : Fin 4096) k, E e p := by
  rw [(Stats.dat V c).arrAt_eq_of_cover 3 (Gsum E sg) (sum_flushed V c E sg hE hsg) (sum_cover c)]
  show gsum E sg k.val (⟨hi.val * 16 + e.val, _⟩ : Fin 256) lo = _
  unfold gsum
  have ehi : (⟨(⟨hi.val * 16 + e.val, by omega⟩ : Fin 256).val / 16, by dsimp only; omega⟩ : Fin 16) = hi := Fin.ext (by dsimp only; omega)
  have ee : (⟨(⟨hi.val * 16 + e.val, by omega⟩ : Fin 256).val % 16, by dsimp only; omega⟩ : Fin 16) = e := Fin.ext (by dsimp only; omega)
  rw [ehi, ee, Finset.sum_range]
  refine Eq.trans ?_ (Cert.TileSum.tiles_eq_pixH sg _ k (E e))
  exact Finset.sum_congr rfl fun q _ => sumN_row E sg k q hi e lo

end Cert.KernelIdeal.StatsValue

end
-- ==== Proof.IntraPay.lean ====
import proofs.«415856_j56882546868663_3_alg».proof.Proof.Digits
import proofs.«415856_j56882546868663_3_alg».proof.Proof.Spec

noncomputable section

namespace Cert.KernelIdeal.IntraPay

open Cert.KernelIdeal Cert.KernelIdeal.Gen
open Idealize.ShloMosaic Idealize.ShloMosaic.ValueIdx Digits

abbrev lab := Digits.lab

def look (x2 : Vec Ideal S256x256 .f32) (w : Nat) (e : Fin 16) : EReal :=
  if h : w < 4096 then x2 (ix2 (⟨(w / 256) * 16 + e.val, by omega⟩ : Fin 256) (⟨w % 256, Nat.mod_lt _ (by decide)⟩ : Fin 256)) else 0

def tileHinge (x0 : Vec Ideal S16x2048 .f32) (x1 : Vec Ideal S1x2048 .i32) (x2 : Vec Ideal S256x256 .f32) (l : Fin 2048) : EReal :=
  max (((1 : EReal) - ∑ e : Fin 16, look x2 (lab x1 l).toNat e * x0 (ix2 e l)) - Cert.Spec.half) 0

theorem pay6_apply (x1 : Vec Ideal S1x2048 .i32) (r : Fin 256) (l : Fin 2048) :
    k1_pay6 (F := Ideal) x1 (ix2 r l) = if r.val = (lab x1 l).toNat % 256 then 1 else 0 := by
  unfold k1_pay6 k1_pay5; rw [shapeCast_self]; exact loInd x1 r l

theorem pay7_apply (x1 : Vec Ideal S1x2048 .i32) (h : Fin 16) (l : Fin 2048) (hx : (lab x1 l).toNat < 4096) :
    k1_pay7 (F := Ideal) x1 (ix2 h l) = if h.val = (lab x1 l).toNat / 256 then 1 else 0 := by
  unfold k1_pay7 k1_pay5; rw [shapeCast_self]; exact hiInd x1 h l hx

theorem lhs8_0 (j : S256x2048.Idx) (k : dot_S256x256_S256x2048_S256x2048_1_0_0_1_n_n.contr.Idx) :
    (dot_S256x256_S256x2048_S256x2048_1_0_0_1_n_n.lhsIdx j k 0 : ℕ) = j 0 := by
  simp [DotDims.lhsIdx, dot_S256x256_S256x2048_S256x2048_1_0_0_1_n_n]; rfl
theorem lhs8_1 (j : S256x2048.Idx) (k : dot_S256x256_S256x2048_S256x2048_1_0_0_1_n_n.contr.Idx) :
    (dot_S256x256_S256x2048_S256x2048_1_0_0_1_n_n.lhsIdx j k 1 : ℕ) = k ⟨0, by decide⟩ := by
  simp [DotDims.lhsIdx, dot_S256x256_S256x2048_S256x2048_1_0_0_1_n_n]; rfl
theorem rhs8_0 (j : S256x2048.Idx) (k : dot_S256x256_S256x2048_S256x2048_1_0_0_1_n_n.contr.Idx) :
    (dot_S256x256_S256x2048_S256x2048_1_0_0_1_n_n.rhsIdx j k 0 : ℕ) = k ⟨0, by decide⟩ := by
  simp [DotDims.rhsIdx, dot_S256x256_S256x2048_S256x2048_1_0_0_1_n_n]; rfl
theorem rhs8_1 (j : S256x2048.Idx) (k : dot_S256x256_S256x2048_S256x2048_1_0_0_1_n_n.contr.Idx) :
    (dot_S256x256_S256x2048_S256x2048_1_0_0_1_n_n.rhsIdx j k 1 : ℕ) = j 1 := by
  simp [DotDims.rhsIdx, dot_S256x256_S256x2048_S256x2048_1_0_0_1_n_n]; rfl

/-- A sum against the indicator of one position keeps that position's term. -/
theorem sum_mul_indicator {n : Nat} (f : Fin n → EReal) (p : Nat) (hp : p < n) :
    ∑ c : Fin n, f c * (if c.val = p then (1 : EReal) else 0) = f ⟨p, hp⟩ := by
  rw [Finset.sum_eq_single_of_mem (⟨p, hp⟩ : Fin n) (Finset.mem_univ _)]
  · rw [if_pos rfl, mul_one]
  · intro b _ hb
    rw [if_neg (fun h => hb (Fin.ext h)), mul_zero]

/-- Contracting the table with the low-digit indicator picks, for pixel l, the column of its label's low digit. -/
theorem pay8_apply (x1 : Vec Ideal S1x2048 .i32) (x2 : Vec Ideal S256x256 .f32) (r : Fin 256) (l : Fin 2048) :
    k1_pay8 (F := Ideal) x1 x2 (ix2 r l)
      = x2 (ix2 r (⟨(lab x1 l).toNat % 256, Nat.mod_lt _ (by decide)⟩ : Fin 256)) := by
  unfold k1_pay8
  rw [shapeCast_self]
  refine (Ideal.matmul_constant_zero_apply _ none _ _ (ix2 r l)).trans ?_
  rw [← Equiv.sum_comp (contrEquiv1 dot_S256x256_S256x2048_S256x2048_1_0_0_1_n_n 256 rfl rfl).symm]
  have hL : ∀ c : Fin 256, dot_S256x256_S256x2048_S256x2048_1_0_0_1_n_n.lhsIdx (ix2 r l)
      ((contrEquiv1 dot_S256x256_S256x2048_S256x2048_1_0_0_1_n_n 256 rfl rfl).symm c) = ix2 r c := fun c =>
    Shape.idx_ext₂ (by rw [lhs8_0]) (by rw [lhs8_1]; exact contrEquiv1_symm_val _ _ _ _ c)
  have hR : ∀ c : Fin 256, dot_S256x256_S256x2048_S256x2048_1_0_0_1_n_n.rhsIdx (ix2 r l)
      ((contrEquiv1 dot_S256x256_S256x2048_S256x2048_1_0_0_1_n_n 256 rfl rfl).symm c) = ix2 c l := fun c =>
    Shape.idx_ext₂ (by rw [rhs8_0]; exact contrEquiv1_symm_val _ _ _ _ c) (by rw [rhs8_1])
  refine (Finset.sum_congr rfl fun c _ => ?_).trans
    (sum_mul_indicator (fun c : Fin 256 => x2 (ix2 r c)) ((lab x1 l).toNat % 256) (Nat.mod_lt _ (by decide)))
  rw [hL c, hR c, pay6_apply]
  rfl

/-- Block `k` of the sixteen: row `k` of the high-digit indicator times row `16 k + e` of the contracted table. -/
def blockTerm (M7 : FVec Ideal S16x2048 .f32) (M8 : FVec Ideal S256x2048 .f32) (e : Fin 16) (l : Fin 2048) (k : ℕ) : EReal :=
  if h : k < 16 then M7 (ix2 (⟨k, h⟩ : Fin 16) l) * M8 (ix2 (⟨k * 16 + e.val, by omega⟩ : Fin 256) l) else 0

theorem term_block (M7 : FVec Ideal S16x2048 .f32) (M8 : FVec Ideal S256x2048 .f32) (k o8 : Nat)
    (h7 : S16x2048.Slices ![k, 0] S1x2048) (h8 : S256x2048.Slices ![o8, 0] S16x2048) (e : Fin 16) (l : Fin 2048)
    (hk : k < 16) (ho : o8 = k * 16) :
    mulf (broadcastTo S16x2048 (extractStridedSlice S1x2048 ![k, 0] M7 h7) broadcasts_S1x2048_S16x2048)
      (extractStridedSlice S16x2048 ![o8, 0] M8 h8) (ix2 e l) = blockTerm M7 M8 e l k := by
  subst ho
  rw [blockTerm, dif_pos hk, mulf_apply, bcast_row, slice2_axis0_apply k M7 h7 (0 : Fin 1) l ⟨k, hk⟩ rfl,
    slice2_axis0_apply (k * 16) M8 h8 e l ⟨k * 16 + e.val, by omega⟩ rfl]

/-- The `n` terms `T k, T (k + 1), …` added one by one to `s`. -/
def addFrom (T : ℕ → EReal) (k : ℕ) : ℕ → EReal → EReal
  | 0, s => s
  | n + 1, s => addFrom T k n s + T (k + n)

theorem addFrom_eq (T : ℕ → EReal) (k n : ℕ) (s : EReal) : addFrom T k n s = s + ∑ j ∈ Finset.range n, T (k + j) := by
  induction n with
  | zero => simp [addFrom]
  | succ n ih => rw [addFrom, ih, Finset.sum_range_succ, add_assoc]

/-- Sixteen terms of which all but the `p`-th vanish add up to the `p`-th. -/
theorem addFrom_pick (T : ℕ → EReal) (p : ℕ) (hp : p < 16) (v : EReal) (hT : ∀ k, T k = if k = p then v else 0) :
    addFrom T 0 16 0 = v := by
  rw [addFrom_eq, zero_add, Finset.sum_eq_single p (fun j _ hj => by rw [Nat.zero_add, hT, if_neg hj])
    (fun h => absurd (Finset.mem_range.mpr hp) h), Nat.zero_add, hT, if_pos rfl]

theorem pay9_apply (x1 : Vec Ideal S1x2048 .i32) (x2 : Vec Ideal S256x256 .f32) (e : Fin 16) (l : Fin 2048) :
    k1_pay9 (F := Ideal) x1 x2 (ix2 e l) = addFrom (blockTerm (k1_pay7 x1) (k1_pay8 x1 x2) e l) 0 3 0 := by
  unfold k1_pay9
  simp (disch := decide) only [addf_apply, term_block]
  rw [broadcast_apply]
  exact congrArg (addFrom (blockTerm (k1_pay7 x1) (k1_pay8 x1 x2) e l) 0 3) Ideal.ofBits_zero_f32

theorem pay10_apply (x1 : Vec Ideal S1x2048 .i32) (x2 : Vec Ideal S256x256 .f32) (e : Fin 16) (l : Fin 2048) :
    k1_pay10 (F := Ideal) x1 x2 (ix2 e l) = k1_pay8 (F := Ideal) x1 x2 (ix2 (⟨48 + e.val, by omega⟩ : Fin 256) l) := by
  unfold k1_pay10
  exact slice2_axis0_apply 48 _ _ e l _ rfl

theorem pay11_apply (x1 : Vec Ideal S1x2048 .i32) (e : Fin 16) (l : Fin 2048) :
    k1_pay11 (F := Ideal) x1 (ix2 e l) = k1_pay7 (F := Ideal) x1 (ix2 (⟨3, by decide⟩ : Fin 16) l) := by
  unfold k1_pay11
  rw [bcast_row]
  exact slice2_axis0_apply 3 _ _ (0 : Fin 1) l _ rfl

theorem pay13_apply (M8 : FVec Ideal S256x2048 .f32) (e : Fin 16) (l : Fin 2048) :
    k1_pay13 (F := Ideal) M8 (ix2 e l) = M8 (ix2 (⟨240 + e.val, by omega⟩ : Fin 256) l) := by
  unfold k1_pay13
  exact slice2_axis0_apply 240 _ _ e l _ rfl

theorem pay14_apply (M7 : FVec Ideal S16x2048 .f32) (e : Fin 16) (l : Fin 2048) :
    k1_pay14 (F := Ideal) M7 (ix2 e l) = M7 (ix2 (⟨15, by decide⟩ : Fin 16) l) := by
  unfold k1_pay14
  rw [bcast_row]
  exact slice2_axis0_apply 15 _ _ (0 : Fin 1) l _ rfl

theorem pay12_apply (M7 : FVec Ideal S16x2048 .f32) (M8 : FVec Ideal S256x2048 .f32) (v41 v43 v44 : FVec Ideal S16x2048 .f32)
    (e : Fin 16) (l : Fin 2048) :
    k1_pay12 (F := Ideal) M7 M8 v41 v43 v44 (ix2 e l)
      = addFrom (blockTerm M7 M8 e l) 4 11 (v41 (ix2 e l) + v44 (ix2 e l) * v43 (ix2 e l)) := by
  unfold k1_pay12
  simp (disch := decide) only [addf_apply, term_block]
  rfl

/-- Of the sixteen row blocks masked by the high-digit indicator all but one vanish: what is left is channel e of the mean of pixel l's own segment. -/
theorem gathered_apply (x1 : Vec Ideal S1x2048 .i32) (x2 : Vec Ideal S256x256 .f32) (e : Fin 16) (l : Fin 2048)
    (hx : (lab x1 l).toNat < 4096) :
    k1_pay12 (F := Ideal) (k1_pay7 x1) (k1_pay8 x1 x2) (k1_pay9 x1 x2) (k1_pay10 x1 x2) (k1_pay11 x1) (ix2 e l)
      + k1_pay14 (F := Ideal) (k1_pay7 x1) (ix2 e l) * k1_pay13 (F := Ideal) (k1_pay8 x1 x2) (ix2 e l)
      = look x2 (lab x1 l).toNat e := by
  rw [pay12_apply, pay9_apply, pay10_apply, pay11_apply, pay13_apply, pay14_apply]
  unfold look
  rw [dif_pos hx]
  refine addFrom_pick (blockTerm (k1_pay7 x1) (k1_pay8 x1 x2) e l) ((lab x1 l).toNat / 256) (by omega) _ fun k => ?_
  unfold blockTerm
  by_cases hk : k < 16
  · rw [dif_pos hk, pay7_apply x1 _ l hx, pay8_apply]
    by_cases h : k = (lab x1 l).toNat / 256
    · subst h; rw [if_pos rfl, if_pos rfl, one_mul]
    · rw [if_neg h, if_neg h, zero_mul]
  · rw [dif_neg hk, if_neg (by omega)]

theorem lanesum (v : FVec Ideal S16x2048 .f32) (l : Fin 2048) :
    multiReduction (F := Ideal) .add [0] S2048 v 0x00000000#32 reduces_S16x2048_S2048 (.inl rfl) rfl (ix1 l)
      = ∑ e : Fin 16, v (ix2 e l) := by
  refine (Ideal.multiReduction_add_single v _ reduces_S16x2048_S2048 _ _ (ix1 l)).trans ?_
  exact Finset.sum_congr rfl fun e _ => congrArg v (Shape.idx_ext₂ rfl rfl)

theorem pay1_apply (v4 : FVec Ideal S16x2048 .f32) (v16 : FVec Ideal S256x2048 .bf16)
    (v21 v101 v103 v104 : FVec Ideal S16x2048 .f32) (a : Vec Ideal S16x256 .f32) (hi : Fin 16) (lo : Fin 256) :
    k1_pay1 (F := Ideal) v4 v16 v21 v101 v103 v104 a (ix2 hi lo)
      = a (ix2 hi lo) + ∑ l : Fin 2048, (v21 (ix2 hi l) * max (((1 : EReal)
          - ∑ e : Fin 16, v4 (ix2 e l) * (v101 (ix2 e l) + v104 (ix2 e l) * v103 (ix2 e l))) - Cert.Spec.half) 0)
          * v16 (ix2 lo l) := by
  unfold k1_pay1
  rw [shapeCast_self, addf_apply]
  refine congrArg (a (ix2 hi lo) + ·) ?_
  refine (Ideal.matmul_constant_zero_apply _ none _ _ (ix2 hi lo)).trans ?_
  rw [← Equiv.sum_comp (contrEquiv1 Dc 2048 rfl rfl).symm]
  refine Finset.sum_congr rfl fun l _ => ?_
  rw [lhsC_idx, rhsC_idx]
  refine congrArg (· * v16 (ix2 lo l)) ?_
  rw [truncf_apply, mulf_apply, bcast_row]
  refine congrArg (v21 (ix2 hi l) * ·) ?_
  rw [maximumf_apply, subf_apply, subf_apply, broadcast_apply, broadcast_apply, broadcast_apply,
    shapeCast_a_1a_apply, lanesum]
  rw [show (Scalar.ofBits (F := Ideal) .f32 0x3F800000#32 : EReal) = 1 from Ideal.ofBits_one_f32,
    show (Scalar.ofBits (F := Ideal) .f32 0x00000000#32 : EReal) = 0 from Ideal.ofBits_zero_f32]
  rfl

theorem ind_mul (A B : Prop) [Decidable A] [Decidable B] (H : EReal) :
    ((if A then (1 : EReal) else 0) * H) * (if B then (1 : EReal) else 0) = if A ∧ B then H else 0 := by
  by_cases hA : A <;> by_cases hB : B <;> simp [hA, hB]

/-- One tile adds to entry (hi, lo) the hinges of its pixels labelled 256 hi + lo. -/
theorem hingeStep_apply (x0 : Vec Ideal S16x2048 .f32) (x1 : Vec Ideal S1x2048 .i32) (x2 : Vec Ideal S256x256 .f32)
    (a : Vec Ideal S16x256 .f32) (hi : Fin 16) (lo : Fin 256) (hx : ∀ l, (lab x1 l).toNat < 4096) :
    k1_pay1 (F := Ideal) (k1_pay4 x0) (k1_pay6 x1) (k1_pay7 x1) (k1_pay12 (k1_pay7 x1) (k1_pay8 x1 x2) (k1_pay9 x1 x2) (k1_pay10 x1 x2) (k1_pay11 x1)) (k1_pay13 (k1_pay8 x1 x2)) (k1_pay14 (k1_pay7 x1)) a (ix2 hi lo)
      = a (ix2 hi lo) + ∑ l : Fin 2048, (if (lab x1 l).toNat = hi.val * 256 + lo.val then tileHinge x0 x1 x2 l else 0) := by
  rw [pay1_apply]
  refine congrArg (a (ix2 hi lo) + ·) (Finset.sum_congr rfl fun l _ => ?_)
  have hw := hx l
  rw [pay7_apply x1 hi l hw, pay6_apply x1 lo l, ind_mul]
  have hG : ∀ e : Fin 16, k1_pay12 (F := Ideal) (k1_pay7 x1) (k1_pay8 x1 x2) (k1_pay9 x1 x2) (k1_pay10 x1 x2) (k1_pay11 x1) (ix2 e l)
      + k1_pay14 (F := Ideal) (k1_pay7 x1) (ix2 e l) * k1_pay13 (F := Ideal) (k1_pay8 x1 x2) (ix2 e l)
      = look x2 (lab x1 l).toNat e := fun e => gathered_apply x1 x2 e l hw
  have h4 : ∀ e : Fin 16, k1_pay4 (F := Ideal) x0 (ix2 e l) = x0 (ix2 e l) := fun e => by
    unfold k1_pay4; rw [shapeCast_self]
  have hs : ∑ e : Fin 16, k1_pay4 (F := Ideal) x0 (ix2 e l) * (k1_pay12 (F := Ideal) (k1_pay7 x1) (k1_pay8 x1 x2) (k1_pay9 x1 x2) (k1_pay10 x1 x2) (k1_pay11 x1) (ix2 e l)
      + k1_pay14 (F := Ideal) (k1_pay7 x1) (ix2 e l) * k1_pay13 (F := Ideal) (k1_pay8 x1 x2) (ix2 e l))
      = ∑ e : Fin 16, look x2 (lab x1 l).toNat e * x0 (ix2 e l) :=
    Finset.sum_congr rfl fun e _ => by rw [hG e, h4 e, mul_comm]
  rw [hs]
  have hc : (hi.val = (lab x1 l).toNat / 256 ∧ lo.val = (lab x1 l).toNat % 256)
      ↔ (lab x1 l).toNat = hi.val * 256 + lo.val := by
    have := hi.isLt; have := lo.isLt; omega
  by_cases h : (lab x1 l).toNat = hi.val * 256 + lo.val
  · rw [if_pos h, if_pos (hc.mpr h)]; rfl
  · rw [if_neg h, if_neg (fun h' => h (hc.mp h'))]

theorem zero_acc (j : S16x256.Idx) : k1_pay3 (F := Ideal) j = 0 := by
  unfold k1_pay3
  rw [shapeCast_self]
  exact Ideal.ofBits_zero_f32

theorem out_apply (v : Vec Ideal S16x256 .f32) (hi : Fin 16) (lo : Fin 256) :
    k1_pay2 (F := Ideal) v (ix3 (0 : Fin 1) hi lo) = v (ix2 hi lo) := by
  unfold k1_pay2
  refine shapeCast_apply v _ (ix3 (0 : Fin 1) hi lo) (ix2 hi lo) ?_
  rw [Shape.rowMajor_val_two, Shape.rowMajor_val_three]
  show hi.val * 256 + lo.val = ((0 : Fin 1).val * 16 + hi.val) * 256 + lo.val
  simp

end Cert.KernelIdeal.IntraPay

end
-- ==== Proof.IntraValue.lean ====
import proofs.«415856_j56882546868663_3_alg».proof.Proof.IntraFrame
import proofs.«415856_j56882546868663_3_alg».proof.Proof.IntraPay
import proofs.«415856_j56882546868663_3_alg».proof.Proof.TileSum

noncomputable section

namespace Cert.KernelIdeal.IntraValue

open Cert.KernelIdeal Cert.KernelIdeal.Gen Cert.KernelIdeal.Intra
open Idealize.ShloMosaic Idealize.ShloMosaic.TcCoe Idealize.ShloMosaic.ValueIdx Idealize.ShloMosaic.Tactic
open Idealize.ShloMosaic.Pipeline (Dat Cfg Window)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a tile, as the program's payload functions build it from the tile's blocks and the accumulator before. -/
abbrev step {F : FTy → Type} [FloatOps F] (x0 : Vec F S16x2048 .f32) (x1 : Vec F S1x2048 .i32) (x2 : Vec F S256x256 .f32) (a : Vec F S16x256 .f32) : Vec F S16x256 .f32 :=
  k1_pay1 (k1_pay4 x0) (k1_pay6 x1) (k1_pay7 x1) (k1_pay12 (k1_pay7 x1) (k1_pay8 x1 x2) (k1_pay9 x1 x2) (k1_pay10 x1 x2) (k1_pay11 x1)) (k1_pay13 (k1_pay8 x1 x2)) (k1_pay14 (k1_pay7 x1)) a

variable (V : (c : Dev nD) → (b : Ref sig .tc) → Buf (Elt Ideal) ((c : Thread nD τ).loc b)) (c : Dev nD)
variable (E : Fin 16 → Fin 1048576 → EReal) (sg : Fin 1048576 → Fin 4096)
variable (hE : ∀ (e : Fin 16) (p : Fin 1048576), (V c main_v0 : FVec Ideal S16x1048576 .f32) (ix2 e p) = E e p)
variable (hsg : ∀ p : Fin 1048576, ((V c main_v1 : IVec S1x1048576 32) (ix2 (0 : Fin 1) p)).toNat = (sg p).val)
variable (hM : ∀ (hi e : Fin 16) (lo : Fin 256),
    (V c main_v16 : FVec Ideal S256x256 .f32) (ix2 (⟨hi.val * 16 + e.val, by omega⟩ : Fin 256) lo)
      = Cert.Spec.means E sg (⟨hi.val * 256 + lo.val, by omega⟩ : Fin 4096) e)

def tl (t : Fin cfg1.N) : Fin 512 := ⟨t.val, lt_of_lt_of_eq t.isLt N_1⟩

abbrev eblk (t : Fin cfg1.N) : Vec Ideal S16x2048 .f32 := iblk V c 0 t
abbrev sblk (t : Fin cfg1.N) : Vec Ideal S1x2048 .i32 := iblk V c 1 t
abbrev mblk (t : Fin cfg1.N) : Vec Ideal S256x256 .f32 := iblk V c 2 t

/-- Each run stores the accumulator once, through its whole rectangle: the tile's step, from the zero block at a row's first point; a row's last point also stores the new contents into the output block, under a leading axis of extent one. -/
theorem pieces (t : Fin cfg1.N) :
    (∀ h0, View.canon (runA V c t h0).1 = step (eblk V c t) (sblk V c t) (mblk V c t) (k1_pay3 (F := Ideal)))
      ∧ (∀ h0 h1 a, View.canon (runB V c t h0 h1 a).1 = step (eblk V c t) (sblk V c t) (mblk V c t) a)
      ∧ ∀ h1 a, View.canon (runC V c t h1 a).2.1 = step (eblk V c t) (sblk V c t) (mblk V c t) a ∧ View.canon (runC V c t h1 a).1 = k1_pay2 (step (eblk V c t) (sblk V c t) (mblk V c t) a) := by
  refine ⟨fun _ => ?_, fun _ _ _ => ?_, fun _ _ => ⟨?_, ?_⟩⟩ <;>
  · simp only [runA, runB, runC, kernelRun_A, kernelRun_B, kernelRun_C]
    sl_unfold_words
    simp only [View.canon_cons_unit_zero (S := S16x256) hz2, View.canon_cons_unit_zero (S := S1x16x256) hz3, View.readCov_unit_zero (S := S16x256) _ hz2, View.readAt_eq_ld, (argsAt t).h2.read_unread, (argsAt t).h3.read_unread, (argsAt t).h4.read_unread, (argsAt t).h6.read_unread, View.ld_unit_zero (S := S16x2048) hz2, View.ld_unit_zero (S := S1x2048) hz2, View.ld_unit_zero (S := S256x256) hz2, View.ld_unit_zero (S := S16x256) hz2]

theorem idx_facts : ∀ t : Fin cfg1.N,
    win1_0.index t 0 = 0 ∧ win1_0.index t 1 = t.val ∧ win1_1.index t 0 = 0 ∧ win1_1.index t 1 = t.val
      ∧ win1_2.index t 0 = 0 ∧ win1_2.index t 1 = 0
      ∧ win1_3.index t 0 = t.val / 256 ∧ win1_3.index t 1 = 0 ∧ win1_3.index t 2 = 0 := by decide +kernel

theorem eblk_apply (t : Fin cfg1.N) (e : Fin 16) (l : Fin 2048) :
    eblk V c t (ix2 e l) = (V c main_v0 : FVec Ideal S16x1048576 .f32) (ix2 e (Cert.TileSum.pixT (tl t) l)) := by
  obtain ⟨h0, h1, -⟩ := idx_facts t
  unfold eblk iblk
  rw [View.read_apply]
  refine congrArg (V c main_v0) (Shape.idx_ext₂ ?_ ?_)
  · show win1_0.index t 0 * 16 + 1 * e.val = e.val; rw [h0]; omega
  · show win1_0.index t 1 * 2048 + 1 * l.val = t.val * 2048 + l.val; rw [h1]; omega

theorem sblk_apply (t : Fin cfg1.N) (l : Fin 2048) :
    sblk V c t (ix2 (0 : Fin 1) l) = (V c main_v1 : IVec S1x1048576 32) (ix2 (0 : Fin 1) (Cert.TileSum.pixT (tl t) l)) := by
  obtain ⟨-, -, h0, h1, -⟩ := idx_facts t
  unfold sblk iblk
  rw [View.read_apply]
  refine congrArg (V c main_v1) (Shape.idx_ext₂ ?_ ?_)
  · show win1_1.index t 0 * 1 + 1 * 0 = 0; rw [h0]
  · show win1_1.index t 1 * 2048 + 1 * l.val = t.val * 2048 + l.val; rw [h1]; omega

theorem mblk_apply (t : Fin cfg1.N) (r lo : Fin 256) :
    mblk V c t (ix2 r lo) = (V c main_v16 : FVec Ideal S256x256 .f32) (ix2 r lo) := by
  obtain ⟨-, -, -, -, h0, h1, -⟩ := idx_facts t
  unfold mblk iblk
  rw [View.read_apply]
  refine congrArg (V c main_v16) (Shape.idx_ext₂ ?_ ?_)
  · show win1_2.index t 0 * 256 + 1 * r.val = r.val; rw [h0]; omega
  · show win1_2.index t 1 * 256 + 1 * lo.val = lo.val; rw [h1]; omega

include hE in
theorem eblk_eq (t : Fin cfg1.N) (e : Fin 16) (l : Fin 2048) : eblk V c t (ix2 e l) = E e (Cert.TileSum.pixT (tl t) l) := by
  rw [eblk_apply, hE]

include hsg in
theorem lab_eq (t : Fin cfg1.N) (l : Fin 2048) : (IntraPay.lab (sblk V c t) l).toNat = (sg (Cert.TileSum.pixT (tl t) l)).val := by
  unfold IntraPay.lab Digits.lab
  rw [sblk_apply, hsg]

include hsg in
theorem lab_lt (t : Fin cfg1.N) (l : Fin 2048) : (IntraPay.lab (sblk V c t) l).toNat < 4096 := by
  rw [lab_eq V c sg hsg]; exact (sg _).isLt

include hM in
theorem look_eq (t : Fin cfg1.N) (w : ℕ) (hw : w < 4096) (e : Fin 16) :
    IntraPay.look (mblk V c t) w e = Cert.Spec.means E sg ⟨w, hw⟩ e := by
  unfold IntraPay.look
  rw [dif_pos hw, mblk_apply]
  refine (hM ⟨w / 256, by omega⟩ e ⟨w % 256, Nat.mod_lt _ (by decide)⟩).trans ?_
  exact congrArg (fun x => Cert.Spec.means E sg x e) (Fin.ext (Nat.div_add_mod' w 256))

include hE hsg hM in
theorem tileHinge_eq (t : Fin cfg1.N) (l : Fin 2048) :
    IntraPay.tileHinge (eblk V c t) (sblk V c t) (mblk V c t) l = Cert.Spec.hinge E sg (Cert.TileSum.pixT (tl t) l) := by
  have hs : ∀ e : Fin 16, IntraPay.look (mblk V c t) (IntraPay.lab (sblk V c t) l).toNat e * eblk V c t (ix2 e l)
      = Cert.Spec.means E sg (sg (Cert.TileSum.pixT (tl t) l)) e * E e (Cert.TileSum.pixT (tl t) l) := by
    intro e
    rw [lab_eq V c sg hsg, look_eq V c E sg hM t _ (sg _).isLt e, eblk_eq V c E hE]
  unfold IntraPay.tileHinge Cert.Spec.hinge
  simp only [hs]

/-- What tile `n` adds to entry `(hi, lo)`: the hinges of its pixels labelled `256 hi + lo`. -/
def hingeN (n hi lo : ℕ) : EReal :=
  if h : n < 512 then ∑ l : Fin 2048, (if (sg (Cert.TileSum.pixT ⟨n, h⟩ l)).val = hi * 256 + lo then Cert.Spec.hinge E sg (Cert.TileSum.pixT ⟨n, h⟩ l) else 0) else 0

include hE hsg hM in
theorem hinge_tile (t : Fin cfg1.N) (hi : Fin 16) (lo : Fin 256) :
    (∑ l : Fin 2048, (if (IntraPay.lab (sblk V c t) l).toNat = hi.val * 256 + lo.val then IntraPay.tileHinge (eblk V c t) (sblk V c t) (mblk V c t) l else 0))
      = hingeN E sg t.val hi.val lo.val := by
  have h : t.val < 512 := (tl t).isLt
  unfold hingeN
  rw [dif_pos h]
  refine Finset.sum_congr rfl fun l _ => ?_
  rw [lab_eq V c sg hsg, tileHinge_eq V c E sg hE hsg hM]
  rfl

theorem step_apply (x0 : Vec Ideal S16x2048 .f32) (x1 : Vec Ideal S1x2048 .i32) (x2 : Vec Ideal S256x256 .f32) (a : Vec Ideal S16x256 .f32)
    (hi : Fin 16) (lo : Fin 256) (hx : ∀ l, (IntraPay.lab x1 l).toNat < 4096) :
    step x0 x1 x2 a (ix2 hi lo)
      = a (ix2 hi lo) + ∑ l : Fin 2048, (if (IntraPay.lab x1 l).toNat = hi.val * 256 + lo.val then IntraPay.tileHinge x0 x1 x2 l else 0) :=
  IntraPay.hingeStep_apply x0 x1 x2 a hi lo hx

/-- Every point steps the accumulator, from the zero block at a row's first point; -/
theorem acc_step (t : Fin cfg1.N) :
    accAt V c (t.val + 1) = step (eblk V c t) (sblk V c t) (mblk V c t) (if t.val % 256 = 0 then k1_pay3 (F := Ideal) else accAt V c t.val) := by
  rw [accAt_succ, stepAt]
  by_cases h0 : t.val % 256 = 0
  · rw [dif_pos h0, if_pos h0]; exact (pieces V c t).1 h0
  · rw [dif_neg h0, if_neg h0]
    by_cases h1 : t.val % 256 = 255
    · rw [dif_pos h1]; exact ((pieces V c t).2.2 h1 _).1
    · rw [dif_neg h1]; exact (pieces V c t).2.1 h0 h1 _

/-- and a row's last point leaves the new contents in the output block. -/
theorem out_last (t : Fin cfg1.N) (h1 : t.val % 256 = 255) :
    (stepAt V c t (accAt V c t.val)).1 = k1_pay2 (accAt V c (t.val + 1)) := by
  rw [accAt_succ, stepAt, dif_neg (by omega), dif_pos h1]; dsimp only; rw [((pieces V c t).2.2 h1 _).2, ((pieces V c t).2.2 h1 _).1]

include hE hsg hM in
/-- After point `n` the accumulator holds what its row's tiles up to `n` add. -/
theorem acc_inv (n : ℕ) (hn : n < cfg1.N) (hi : Fin 16) (lo : Fin 256) :
    accAt V c (n + 1) (ix2 hi lo) = ∑ j ∈ Finset.range (n % 256 + 1), hingeN E sg (n / 256 * 256 + j) hi.val lo.val := by
  have hs (n : ℕ) (hn : n < cfg1.N) : accAt V c (n + 1) (ix2 hi lo)
      = (if n % 256 = 0 then k1_pay3 (F := Ideal) else accAt V c n) (ix2 hi lo) + hingeN E sg n hi.val lo.val := by
    rw [acc_step V c ⟨n, hn⟩, step_apply _ _ _ _ _ _ (lab_lt V c sg hsg ⟨n, hn⟩), hinge_tile V c E sg hE hsg hM]
  exact Cert.TileSum.rowAcc (fun n _ => accAt V c (n + 1) (ix2 hi lo)) (fun n => hingeN E sg n hi.val lo.val)
    (fun n hn h0 => by rw [hs n hn, if_pos h0, IntraPay.zero_acc, zero_add])
    (fun n hn h0 => by rw [hs _ hn, if_neg h0]) n hn

def G : FVec Ideal S2x16x256 .f32 := fun j => ∑ q ∈ Finset.range 256, hingeN E sg ((j 0).val * 256 + q) (j 1).val (j 2).val

include hE hsg hM in
theorem flushed_eq (t : Fin cfg1.N) (hf : (cfg1.win 3).flush t = true) :
    (Intra.dat V c).flushed 3 t = ((cfg1.win 3).blk t).view.read (Elt Ideal) (G E sg) := by
  have h1 : t.val % 256 = 255 := (flush1_3 t).mp hf
  obtain ⟨-, -, -, -, -, -, i0, i1, i2⟩ := idx_facts t
  have key : ∀ y : S1x16x256.Idx, (Intra.dat V c).after 3 t y = ((cfg1.win 3).blk t).view.read (Elt Ideal) (G E sg) y := by
    intro y
    obtain ⟨a0, a1, a2, rfl⟩ : ∃ (a0 : Fin 1) (a1 : Fin 16) (a2 : Fin 256), y = ix3 a0 a1 a2 := ⟨y 0, y 1, y 2, eq_ix3 y⟩
    obtain rfl : a0 = 0 := Fin.eq_zero a0
    rw [show (Intra.dat V c).after 3 t = (stepAt V c t (accAt V c t.val)).1 from rfl, out_last V c t h1, IntraPay.out_apply, acc_inv V c E sg hE hsg hM t.val t.isLt a1 a2, h1, View.read_apply]
    show _ = G E sg _
    unfold G
    refine Finset.sum_congr rfl fun q _ => ?_
    have e0 : win1_3.index t 0 * 1 + 1 * 0 = t.val / 256 := by rw [i0]; omega
    have e1 : win1_3.index t 1 * 16 + 1 * a1.val = a1.val := by rw [i1]; omega
    have e2 : win1_3.index t 2 * 256 + 1 * a2.val = a2.val := by rw [i2]; omega
    show hingeN E sg (t.val / 256 * 256 + q) a1.val a2.val
      = hingeN E sg ((win1_3.index t 0 * 1 + 1 * 0) * 256 + q) (win1_3.index t 1 * 16 + 1 * a1.val) (win1_3.index t 2 * 256 + 1 * a2.val)
    rw [e0, e1, e2]
  exact funext key

theorem cover (i : S2x16x256.Idx) :
    ∃ t : Fin cfg1.N, (cfg1.win 3).flush t = true ∧ i ∈ ((cfg1.win 3).blk t).view.set := by
  have b0 : (i 0).val < 2 := (i 0).isLt
  have b1 : (i 1).val < 16 := (i 1).isLt
  have b2 : (i 2).val < 256 := (i 2).isLt
  obtain ⟨t, et⟩ : ∃ t : Fin cfg1.N, t.val = (i 0).val * 256 + 255 := ⟨⟨_, by have hN : cfg1.N = 512 := N_1; omega⟩, rfl⟩
  obtain ⟨-, -, -, -, -, -, i0, i1, i2⟩ := idx_facts t
  refine ⟨t, (flush1_3 t).mpr (by omega), ?_⟩
  show i ∈ ((View.whole main_v17).slice (win1_3.rect t)).set
  rw [View.set_slice_whole, Rect.mem_set_unit]
  intro a
  match a with
  | ⟨0, _⟩ => show win1_3.index t 0 * 1 ≤ (i 0 : Nat) ∧ (i 0 : Nat) < win1_3.index t 0 * 1 + 1; rw [i0]; omega
  | ⟨1, _⟩ => show win1_3.index t 1 * 16 ≤ (i 1 : Nat) ∧ (i 1 : Nat) < win1_3.index t 1 * 16 + 16; rw [i1]; omega
  | ⟨2, _⟩ => show win1_3.index t 2 * 256 ≤ (i 2 : Nat) ∧ (i 2 : Nat) < win1_3.index t 2 * 256 + 256; rw [i2]; omega

include hE hsg hM in
theorem arr_eq : (Intra.dat V c).arrAt 3 cfg1.N = G E sg :=
  (Intra.dat V c).arrAt_eq_of_cover 3 (G E sg) (flushed_eq V c E sg hE hsg hM) (cover)

theorem row_total (k : Fin 2) (hi : Fin 16) (lo : Fin 256) :
    ∑ q ∈ Finset.range 256, hingeN E sg (k.val * 256 + q) hi.val lo.val
      = ∑ p ∈ Cert.Spec.pixH sg (⟨hi.val * 256 + lo.val, by omega⟩ : Fin 4096) k, Cert.Spec.hinge E sg p := by
  rw [← Cert.TileSum.tiles_eq_pixH sg (⟨hi.val * 256 + lo.val, by omega⟩ : Fin 4096) k (Cert.Spec.hinge E sg), Finset.sum_range]
  refine Finset.sum_congr rfl fun q _ => ?_
  have hk : k.val < 2 := k.isLt
  have hq : q.val < 256 := q.isLt
  have hlt : k.val * 256 + q.val < 512 := by omega
  unfold hingeN
  rw [dif_pos hlt]
  refine Finset.sum_congr rfl fun l _ => ?_
  have hp : Cert.TileSum.pixT ⟨k.val * 256 + q.val, hlt⟩ l = Cert.TileSum.pixOf k q l := rfl
  rw [hp]
  by_cases h : sg (Cert.TileSum.pixOf k q l) = (⟨hi.val * 256 + lo.val, by omega⟩ : Fin 4096)
  · rw [if_pos h, if_pos (by rw [h])]
  · rw [if_neg h, if_neg (fun h' => h (Fin.ext h'))]

include hE hsg hM

theorem hinge_arr (k : Fin 2) (hi : Fin 16) (lo : Fin 256) :
    ((Intra.dat V c).arrAt 3 cfg1.N : FVec Ideal S2x16x256 .f32) (ix3 k hi lo)
      = ∑ p ∈ Cert.Spec.pixH sg (⟨hi.val * 256 + lo.val, by omega⟩ : Fin 4096) k, Cert.Spec.hinge E sg p := by
  rw [arr_eq V c E sg hE hsg hM]
  exact row_total E sg k hi lo

end Cert.KernelIdeal.IntraValue

end
-- ==== Proof.Final.lean ====
import proofs.«415856_j56882546868663_3_alg».proof.ReferenceIdeal
import proofs.«415856_j56882546868663_3_alg».proof.Proof.Spec
import Idealize.ShloMosaic.Lib.ValueIdx

noncomputable section

namespace Cert.Final

open Idealize.ShloMosaic Idealize.ShloMosaic.ValueIdx Cert.ReferenceIdeal Cert.ReferenceIdeal.Facts₀ Cert.ReferenceIdeal.Facts

variable [Cert.ReferenceIdeal.Facts]

def embT (a0 : FVec Ideal S1x16x1024x1024 .f32) (e : Fin 16) (p : Fin 1048576) : EReal :=
  shapeCast S16x1048576 a0 shapeCasts_S1x16x1024x1024_S16x1048576 (ix2 e p)

def segW (a2 : IVec S1x1x1024x1024 32) (p : Fin 1048576) : BitVec 32 :=
  shapeCast S1048576 a2 shapeCasts_S1x1x1024x1024_S1048576 (ix1 p)

def sgF (a2 : IVec S1x1x1024x1024 32) (hseg : ∀ p, (segW a2 p).toNat < 4096) (p : Fin 1048576) : Fin 4096 :=
  ⟨(segW a2 p).toNat, hseg p⟩

def meansTable (E : Fin 16 → Fin 1048576 → EReal) (sg : Fin 1048576 → Fin 4096) : FVec Ideal S4096x16 .f32 :=
  fun j => Cert.Spec.means E sg (j 0) (j 1)

def interOf {F : FTy → Type} [FloatOps F] (T : FVec F S4096x16 .f32) (a3 : IVec S2x16384 32) (a1 : FVec F S16384 .f32) : FVec F S_ .f32 :=
  have v40 : IVec S1x16384 32 := ((extractStridedSlice S1x16384 ![0, 0] · slices_S2x16384_S1x16384_0_0)) a3
  have v41 : IVec S16384 32 := shapeCast S16384 v40 shapeCasts_S1x16384_S16384
  have v42 : IVec S1x16384 32 := ((extractStridedSlice S1x16384 ![1, 0] · slices_S2x16384_S1x16384_1_0)) a3
  have v43 : IVec S16384 32 := shapeCast S16384 v42 shapeCasts_S1x16384_S16384
  have c_12 : IVec S_ 32 := constantI S_ 32 0#32
  have v44 : IVec S16384 32 := (broadcastInDim S16384 ![] bcast_S_S16384) c_12
  have v45 : IVec S16384 1 := (cmpi .slt) v41 v44
  have c_13 : IVec S_ 32 := constantI S_ 32 4096#32
  have v46 : IVec S16384 32 := (broadcastInDim S16384 ![] bcast_S_S16384) c_13
  have v47 : IVec S16384 32 := (addi) v41 v46
  have v48 : IVec S16384 32 := (select) v45 v47 v41
  have v49 : IVec S16384x1 32 := (broadcastInDim S16384x1 ![0] bcast_S16384_S16384x1_0) v48
  have v50 : FVec F S16384x16 .f32 := ((fun x i => Host.gather gather_S4096x16_S16384x1_S16384x16_1_0_n_n_0_1_116 x i)) T v49
  have c_14 : IVec S_ 32 := constantI S_ 32 0#32
  have v51 : IVec S16384 32 := (broadcastInDim S16384 ![] bcast_S_S16384) c_14
  have v52 : IVec S16384 1 := (cmpi .slt) v43 v51
  have c_15 : IVec S_ 32 := constantI S_ 32 4096#32
  have v53 : IVec S16384 32 := (broadcastInDim S16384 ![] bcast_S_S16384) c_15
  have v54 : IVec S16384 32 := (addi) v43 v53
  have v55 : IVec S16384 32 := (select) v52 v54 v43
  have v56 : IVec S16384x1 32 := (broadcastInDim S16384x1 ![0] bcast_S16384_S16384x1_0) v55
  have v57 : FVec F S16384x16 .f32 := ((fun x i => Host.gather gather_S4096x16_S16384x1_S16384x16_1_0_n_n_0_1_116 x i)) T v56
  have v58 : FVec F S16384x16 .f32 := (mulf) v50 v57
  have cst_16 : FVec F S_ .f32 := constant S_ .f32 0x00000000#32
  have v59 : FVec F S16384 .f32 := ((fun x v => Host.reduceAdd x v reducesTo_S16384x16_S16384_d1 h_S_)) v58 cst_16
  have cst_17 : FVec F S_ .f32 := constant S_ .f32 0x3F800000#32
  have v60 : FVec F S16384 .f32 := (broadcastInDim S16384 ![] bcast_S_S16384) cst_17
  have v61 : FVec F S16384 .f32 := (subf) v60 v59
  have v62 : FVec F S16384 .f32 := (mulf) v61 a1
  have cst_18 : FVec F S_ .f32 := constant S_ .f32 0x3FC00000#32
  have v63 : FVec F S16384 .f32 := (broadcastInDim S16384 ![] bcast_S_S16384) cst_18
  have v64 : FVec F S16384 .f32 := (subf) v63 v62
  have cst_19 : FVec F S_ .f32 := constant S_ .f32 0x00000000#32
  have v65 : FVec F S16384 .f32 := (broadcastInDim S16384 ![] bcast_S_S16384) cst_19
  have v66 : FVec F S16384 .f32 := (maximumf) v64 v65
  have cst_20 : FVec F S_ .f32 := constant S_ .f32 0x00000000#32
  have v67 : FVec F S_ .f32 := ((fun x v => Host.reduceAdd x v reducesTo_S16384_S_d0 h_S_)) v66 cst_20
  have cst_21 : FVec F S_ .f32 := constant S_ .f32 0x46800000#32
  have v68 : FVec F S_ .f32 := (Host.divf) v67 cst_21
  v68

def total (inter : FVec Ideal S_ .f32) (intra : EReal) : FVec Ideal S_ .f32 :=
  addf (mulf (constant S_ .f32 0x3F800000#32) inter) (mulf (constant S_ .f32 0x3F800000#32) (fun _ => intra))

end Cert.Final

end
-- ==== Proof.KernelHost.lean ====
import proofs.«415856_j56882546868663_3_alg».proof.Proof.Gen.KernelIdeal.Launch
import proofs.«415856_j56882546868663_3_alg».proof.Proof.Final
import Idealize.ShloMosaic.Lib.StableHlo.Run
import Idealize.ShloMosaic.Lib.Pipeline.Value
import Idealize.ShloMosaic.Lib.ValueLayout
import Idealize.ShloMosaic.Lib.ValueIdxRank1
import Idealize.ShloMosaic.PureOps.Ideal.Laws

noncomputable section

namespace Cert.KernelIdeal.Host

open Cert.KernelIdeal Cert.KernelIdeal.Gen
open Idealize.ShloMosaic Idealize.ShloMosaic.TcCoe Idealize.ShloMosaic.ValueIdx

variable [Cert.ReferenceIdeal.Facts]
variable (W : Valuation τ sig (Elt Ideal))
variable (E : Fin 16 → Fin 1048576 → EReal) (sg : Fin 1048576 → Fin 4096)

theorem emb_apply (e : Fin 16) (p : Fin 1048576) :
    (StableHlo.after (hostOps0 (F := Ideal)) W (Proc.devRef .tc main_v0) : FVec Ideal S16x1048576 .f32) (ix2 e p)
      = Cert.Final.embT (W (Proc.devRef .tc main_arg0)) e p := by
  have h : (StableHlo.after (hostOps0 (F := Ideal)) W (Proc.devRef .tc main_v0) : FVec Ideal S16x1048576 .f32)
      = shapeCast S16x1048576 (W (Proc.devRef .tc main_arg0)) shapeCasts_S1x16x1024x1024_S16x1048576 := by
    after_results; rfl
  rw [h]; rfl

abbrev pixIdx (p : Fin 1048576) : S1x1x1024x1024.Idx :=
  ix4 (0 : Fin 1) (0 : Fin 1) (⟨p.val / 1024, by omega⟩ : Fin 1024) (⟨p.val % 1024, Nat.mod_lt _ (by decide)⟩ : Fin 1024)

theorem flatRow_apply {α : Type} (a2 : S1x1x1024x1024.Idx → α) (h : S1x1x1024x1024.ShapeCasts S1x1048576) (p : Fin 1048576) :
    shapeCast S1x1048576 a2 h (ix2 (0 : Fin 1) p) = a2 (pixIdx p) :=
  shapeCast_apply a2 h _ _ (by
    have hp : p.val < 1048576 := p.isLt
    rewrite [Shape.rowMajor_val_four, Shape.rowMajor_val_two]
    show ((0 * 1 + 0) * 1024 + p.val / 1024) * 1024 + p.val % 1024 = 0 * 1048576 + p.val
    omega)

theorem flatVec_apply {α : Type} (a2 : S1x1x1024x1024.Idx → α) (h : S1x1x1024x1024.ShapeCasts ⟨1, ![1048576]⟩) (p : Fin 1048576) :
    shapeCast ⟨1, ![1048576]⟩ a2 h (ix1 p) = a2 (pixIdx p) :=
  shapeCast_apply a2 h _ _ (by
    have hp : p.val < 1048576 := p.isLt
    rewrite [Shape.rowMajor_val_four, Shape.rowMajor_val_one]
    show ((0 * 1 + 0) * 1024 + p.val / 1024) * 1024 + p.val % 1024 = p.val
    omega)

theorem seg_apply (p : Fin 1048576) :
    (StableHlo.after (hostOps0 (F := Ideal)) W (Proc.devRef .tc main_v1) : IVec S1x1048576 32) (ix2 (0 : Fin 1) p)
      = Cert.Final.segW (W (Proc.devRef .tc main_arg2)) p := by
  have h : (StableHlo.after (hostOps0 (F := Ideal)) W (Proc.devRef .tc main_v1) : IVec S1x1048576 32)
      = shapeCast S1x1048576 (W (Proc.devRef .tc main_arg2)) shapeCasts_S1x1x1024x1024_S1x1048576 := by
    after_results; rfl
  rw [h]
  exact (flatRow_apply (W (Proc.devRef .tc main_arg2) : IVec S1x1x1024x1024 32) _ p).trans
    (flatVec_apply (W (Proc.devRef .tc main_arg2) : IVec S1x1x1024x1024 32) _ p).symm

theorem rows16_apply (x : FVec Ideal S2x16x256 .f32) (hi : Fin 16) (lo : Fin 256) :
    Host.reduceAdd x (constant S_ .f32 0x00000000#32) reducesTo_S2x16x256_S16x256_d0 h_S_ (ix2 hi lo)
      = x (ix3 (0 : Fin 2) hi lo) + x (ix3 (1 : Fin 2) hi lo) := by
  have H : S2x16x256.Reduces [0] S16x256 := by decide
  simp only [Host.reduceAdd, Ideal.hostReduceAdd_def]
  rw [Ideal.hostReduceAdd_single reducesTo_S2x16x256_S16x256_d0 H, constant_apply, Ideal.ofBits_zero_f32, zero_add]
  refine (Fin.sum_univ_two (fun k : Fin 2 => x (H.lift (ix2 hi lo) k))).trans ?_
  exact congrArg₂ (· + ·)
    (congrArg x (funext fun a => Fin.ext (by match a with | ⟨0, _⟩ => rfl | ⟨1, _⟩ => rfl | ⟨2, _⟩ => rfl)))
    (congrArg x (funext fun a => Fin.ext (by match a with | ⟨0, _⟩ => rfl | ⟨1, _⟩ => rfl | ⟨2, _⟩ => rfl)))

theorem rows256_apply (x : FVec Ideal S2x256x256 .f32) (r lo : Fin 256) :
    Host.reduceAdd x (constant S_ .f32 0x00000000#32) reducesTo_S2x256x256_S256x256_d0 h_S_ (ix2 r lo)
      = x (ix3 (0 : Fin 2) r lo) + x (ix3 (1 : Fin 2) r lo) := by
  have H : S2x256x256.Reduces [0] S256x256 := by decide
  simp only [Host.reduceAdd, Ideal.hostReduceAdd_def]
  rw [Ideal.hostReduceAdd_single reducesTo_S2x256x256_S256x256_d0 H, constant_apply, Ideal.ofBits_zero_f32, zero_add]
  refine (Fin.sum_univ_two (fun k : Fin 2 => x (H.lift (ix2 r lo) k))).trans ?_
  exact congrArg₂ (· + ·)
    (congrArg x (funext fun a => Fin.ext (by match a with | ⟨0, _⟩ => rfl | ⟨1, _⟩ => rfl | ⟨2, _⟩ => rfl)))
    (congrArg x (funext fun a => Fin.ext (by match a with | ⟨0, _⟩ => rfl | ⟨1, _⟩ => rfl | ⟨2, _⟩ => rfl)))

/-- Row 16 hi + e, column lo of the stacked layout is channel e of segment 256 hi + lo. -/
theorem unstack_apply {α : Type} (x : S256x256.Idx → α) (e hi : Fin 16) (lo : Fin 256) :
    shapeCast S16x4096 (transpose S16x16x256 [1, 0, 2] (shapeCast S16x16x256 x shapeCasts_S256x256_S16x16x256)
        transposes_S16x16x256_S16x16x256_1_0_2) shapeCasts_S16x16x256_S16x4096
        (ix2 e (⟨hi.val * 256 + lo.val, by omega⟩ : Fin 4096))
      = x (ix2 (⟨hi.val * 16 + e.val, by omega⟩ : Fin 256) lo) := by
  have he : e.val < 16 := e.isLt
  have hh : hi.val < 16 := hi.isLt
  have hl : lo.val < 256 := lo.isLt
  refine (shapeCast_apply _ shapeCasts_S16x16x256_S16x4096 _ (ix3 e hi lo) (by
    rewrite [Shape.rowMajor_val_three, Shape.rowMajor_val_two]
    show (e.val * 16 + hi.val) * 256 + lo.val = e.val * 4096 + (hi.val * 256 + lo.val)
    omega)).trans ?_
  refine (transpose_apply [1, 0, 2] _ transposes_S16x16x256_S16x16x256_1_0_2 (ix3 e hi lo) (ix3 hi e lo) (fun b => match b with
    | ⟨0, _⟩ => rfl
    | ⟨1, _⟩ => rfl
    | ⟨2, _⟩ => rfl)).trans ?_
  exact shapeCast_apply x shapeCasts_S256x256_S16x16x256 _ _ (by
    rewrite [Shape.rowMajor_val_two, Shape.rowMajor_val_three]
    show (hi.val * 16 + e.val) * 256 + lo.val = (hi.val * 16 + e.val) * 256 + lo.val
    rfl)

theorem restack_apply {α : Type} (x : S16x4096.Idx → α) (hi e : Fin 16) (lo : Fin 256) :
    shapeCast S256x256 (transpose S16x16x256 [1, 0, 2] (shapeCast S16x16x256 x shapeCasts_S16x4096_S16x16x256)
        transposes_S16x16x256_S16x16x256_1_0_2) shapeCasts_S16x16x256_S256x256
        (ix2 (⟨hi.val * 16 + e.val, by omega⟩ : Fin 256) lo)
      = x (ix2 e (⟨hi.val * 256 + lo.val, by omega⟩ : Fin 4096)) := by
  have he : e.val < 16 := e.isLt
  have hh : hi.val < 16 := hi.isLt
  have hl : lo.val < 256 := lo.isLt
  refine (shapeCast_apply _ shapeCasts_S16x16x256_S256x256 _ (ix3 hi e lo) (by
    rewrite [Shape.rowMajor_val_three, Shape.rowMajor_val_two]
    show (hi.val * 16 + e.val) * 256 + lo.val = (hi.val * 16 + e.val) * 256 + lo.val
    rfl)).trans ?_
  refine (transpose_apply [1, 0, 2] _ transposes_S16x16x256_S16x16x256_1_0_2 (ix3 hi e lo) (ix3 e hi lo) (fun b => match b with
    | ⟨0, _⟩ => rfl
    | ⟨1, _⟩ => rfl
    | ⟨2, _⟩ => rfl)).trans ?_
  exact shapeCast_apply x shapeCasts_S16x4096_S16x16x256 _ _ (by
    rewrite [Shape.rowMajor_val_two, Shape.rowMajor_val_three]
    show e.val * 4096 + (hi.val * 256 + lo.val) = (e.val * 16 + hi.val) * 256 + lo.val
    omega)

theorem bcastRows_apply {α : Type} (x : S4096.Idx → α) (e : Fin 16) (c : Fin 4096) :
    broadcastInDim S16x4096 ![0, 1] bcast_S1x4096_S16x4096_0_1 (broadcastInDim S1x4096 ![1] bcast_S4096_S1x4096_1 x) (ix2 e c)
      = x (ix1 c) := by
  refine (broadcastInDim_apply _ bcast_S1x4096_S16x4096_0_1 _ _ (ix2 (0 : Fin 1) c) (fun a => match a with
    | ⟨0, _⟩ => by show 0 = if (1 : Nat) = 1 then 0 else e.val; rw [if_pos rfl]
    | ⟨1, _⟩ => by show c.val = if (4096 : Nat) = 1 then 0 else c.val; rw [if_neg (by decide)])).trans ?_
  exact broadcastInDim_apply _ bcast_S4096_S1x4096_1 x _ (ix1 c) (fun a => match a with
    | ⟨0, _⟩ => by show c.val = if (4096 : Nat) = 1 then 0 else c.val; rw [if_neg (by decide)])

def cntRows : FVec Ideal S16x256 .f32 :=
  Host.reduceAdd (W (Proc.devRef .tc main_v2_0) : FVec Ideal S2x16x256 .f32) (constant S_ .f32 0x00000000#32)
    reducesTo_S2x16x256_S16x256_d0 h_S_

def nnV : FVec Ideal S4096 .f32 :=
  maximumf (shapeCast S4096 (cntRows W) shapeCasts_S16x256_S4096)
    (broadcastInDim S4096 ![] bcast_S_S4096 (constant S_ .f32 0x3F800000#32))

def sumRows : FVec Ideal S256x256 .f32 :=
  Host.reduceAdd (W (Proc.devRef .tc main_v2_1) : FVec Ideal S2x256x256 .f32) (constant S_ .f32 0x00000000#32)
    reducesTo_S2x256x256_S256x256_d0 h_S_

def sumsV : FVec Ideal S16x4096 .f32 :=
  shapeCast S16x4096 (transpose S16x16x256 [1, 0, 2] (shapeCast S16x16x256 (sumRows W) shapeCasts_S256x256_S16x16x256)
    transposes_S16x16x256_S16x16x256_1_0_2) shapeCasts_S16x16x256_S16x4096

def meansV : FVec Ideal S16x4096 .f32 :=
  Host.divf (sumsV W)
    (broadcastInDim S16x4096 ![0, 1] bcast_S1x4096_S16x4096_0_1 (broadcastInDim S1x4096 ![1] bcast_S4096_S1x4096_1 (nnV W)))

def stackV : FVec Ideal S256x256 .f32 :=
  shapeCast S256x256 (transpose S16x16x256 [1, 0, 2] (shapeCast S16x16x256 (meansV W) shapeCasts_S16x4096_S16x16x256)
    transposes_S16x16x256_S16x16x256_1_0_2) shapeCasts_S16x16x256_S256x256

theorem after_v10 :
    (StableHlo.after (hostOps1 (F := Ideal)) W (Proc.devRef .tc main_v10) : FVec Ideal S4096 .f32) = nnV W := by
  after_results; rfl

theorem after_v13 :
    (StableHlo.after (hostOps1 (F := Ideal)) W (Proc.devRef .tc main_v13) : FVec Ideal S16x4096 .f32) = meansV W := by
  after_results; rfl

theorem after_v16 :
    (StableHlo.after (hostOps1 (F := Ideal)) W (Proc.devRef .tc main_v16) : FVec Ideal S256x256 .f32) = stackV W := by
  after_results; rfl

theorem seg_digits (c : Fin 4096) :
    (⟨(⟨c.val / 256, by omega⟩ : Fin 16).val * 256 + (⟨c.val % 256, Nat.mod_lt _ (by decide)⟩ : Fin 256).val,
      by have := c.isLt; show c.val / 256 * 256 + c.val % 256 < 4096; omega⟩ : Fin 4096) = c :=
  Fin.ext (by show c.val / 256 * 256 + c.val % 256 = c.val; omega)

section Second
variable (hC : ∀ (k : Fin 2) (hi : Fin 16) (lo : Fin 256),
    (W (Proc.devRef .tc main_v2_0) : FVec Ideal S2x16x256 .f32) (ix3 k hi lo)
      = ∑ _p ∈ Cert.Spec.pixH sg (⟨hi.val * 256 + lo.val, by omega⟩ : Fin 4096) k, (1 : EReal))
variable (hS : ∀ (k : Fin 2) (hi e : Fin 16) (lo : Fin 256),
    (W (Proc.devRef .tc main_v2_1) : FVec Ideal S2x256x256 .f32) (ix3 k (⟨hi.val * 16 + e.val, by omega⟩ : Fin 256) lo)
      = ∑ p ∈ Cert.Spec.pixH sg (⟨hi.val * 256 + lo.val, by omega⟩ : Fin 4096) k, E e p)
include hC hS

/-- The two halves' counts add up to the segment's size, guarded below by one. -/
theorem nnV_digits (hi : Fin 16) (lo : Fin 256) :
    nnV W (ix1 (⟨hi.val * 256 + lo.val, by omega⟩ : Fin 4096))
      = Cert.Spec.nn sg (⟨hi.val * 256 + lo.val, by omega⟩ : Fin 4096) := by
  have hh : hi.val < 16 := hi.isLt
  have hl : lo.val < 256 := lo.isLt
  unfold nnV
  rw [maximumf_apply]
  have e1 : shapeCast S4096 (cntRows W) shapeCasts_S16x256_S4096 (ix1 (⟨hi.val * 256 + lo.val, by omega⟩ : Fin 4096))
      = cntRows W (ix2 hi lo) :=
    shapeCast_apply _ _ _ _ (by
      rewrite [Shape.rowMajor_val_two, Shape.rowMajor_val_one]
      show hi.val * 256 + lo.val = hi.val * 256 + lo.val
      rfl)
  have e2 : broadcastInDim S4096 ![] bcast_S_S4096 (constant (F := Ideal) S_ .f32 0x3F800000#32)
      (ix1 (⟨hi.val * 256 + lo.val, by omega⟩ : Fin 4096)) = 1 :=
    (broadcastInDim_apply _ bcast_S_S4096 _ _ ix0 (fun a => a.elim0)).trans
      ((constant_apply _ _).trans Ideal.ofBits_one_f32)
  rw [e1, e2]
  unfold cntRows
  rw [rows16_apply, hC, hC]
  unfold Cert.Spec.nn Cert.Spec.cnt
  exact congrArg (max · 1) (Cert.Spec.sum_halves sg _ (fun _ => (1 : EReal)))

theorem nnV_apply (c : Fin 4096) : nnV W (ix1 c) = Cert.Spec.nn sg c := by
  have h := nnV_digits W E sg hC hS (⟨c.val / 256, by omega⟩ : Fin 16) (⟨c.val % 256, Nat.mod_lt _ (by decide)⟩ : Fin 256)
  rw [seg_digits c] at h
  exact h

theorem nn_apply (c : Fin 4096) :
    (StableHlo.after (hostOps1 (F := Ideal)) W (Proc.devRef .tc main_v10) : FVec Ideal S4096 .f32) (ix1 c)
      = Cert.Spec.nn sg c := by
  rw [after_v10]; exact nnV_apply W E sg hC hS c

/-- The two halves' channel sums over the guarded size are the segment's mean. -/
theorem meansV_digits (e hi : Fin 16) (lo : Fin 256) :
    meansV W (ix2 e (⟨hi.val * 256 + lo.val, by omega⟩ : Fin 4096))
      = Cert.Spec.means E sg (⟨hi.val * 256 + lo.val, by omega⟩ : Fin 4096) e := by
  unfold meansV
  show Ideal.div (sumsV W (ix2 e _)) (broadcastInDim S16x4096 ![0, 1] bcast_S1x4096_S16x4096_0_1
    (broadcastInDim S1x4096 ![1] bcast_S4096_S1x4096_1 (nnV W)) (ix2 e _)) = _
  rw [bcastRows_apply, nnV_digits W E sg hC hS hi lo]
  unfold sumsV
  rw [unstack_apply]
  unfold sumRows
  rw [rows256_apply, hS, hS]
  unfold Cert.Spec.means Cert.Spec.sums
  rw [Cert.Spec.sum_halves sg _ (E e)]

theorem means_apply (e : Fin 16) (c : Fin 4096) :
    (StableHlo.after (hostOps1 (F := Ideal)) W (Proc.devRef .tc main_v13) : FVec Ideal S16x4096 .f32) (ix2 e c)
      = Cert.Spec.means E sg c e := by
  rw [after_v13]
  have h := meansV_digits W E sg hC hS e (⟨c.val / 256, by omega⟩ : Fin 16) (⟨c.val % 256, Nat.mod_lt _ (by decide)⟩ : Fin 256)
  rw [seg_digits c] at h
  exact h

theorem stack_apply (hi e : Fin 16) (lo : Fin 256) :
    (StableHlo.after (hostOps1 (F := Ideal)) W (Proc.devRef .tc main_v16) : FVec Ideal S256x256 .f32)
        (ix2 (⟨hi.val * 16 + e.val, by omega⟩ : Fin 256) lo)
      = Cert.Spec.means E sg (⟨hi.val * 256 + lo.val, by omega⟩ : Fin 4096) e := by
  rw [after_v16]
  unfold stackV
  rw [restack_apply]
  exact meansV_digits W E sg hC hS e hi lo

end Second

def hingeV : FVec Ideal S4096 .f32 :=
  shapeCast S4096 (Host.reduceAdd (W (Proc.devRef .tc main_v17) : FVec Ideal S2x16x256 .f32) (constant S_ .f32 0x00000000#32)
    reducesTo_S2x16x256_S16x256_d0 h_S_) shapeCasts_S16x256_S4096

def intraV : FVec Ideal S_ .f32 :=
  Host.divf (Host.reduceAdd (Host.divf (hingeV W) (W (Proc.devRef .tc main_v10) : FVec Ideal S4096 .f32))
    (constant S_ .f32 0x00000000#32) reducesTo_S4096_S_d0 h_S_) (constant S_ .f32 0x45800000#32)

def tableV : FVec Ideal S4096x16 .f32 :=
  transpose S4096x16 [1, 0] (W (Proc.devRef .tc main_v13) : FVec Ideal S16x4096 .f32) transposes_S16x4096_S4096x16_1_0

theorem after_v55 :
    (StableHlo.after (hostOps2 (F := Ideal)) W (Proc.devRef .tc main_v55) : FVec Ideal S_ .f32)
      = addf (mulf (constant S_ .f32 0x3F800000#32)
            (Cert.Final.interOf (tableV W) (W (Proc.devRef .tc main_arg3)) (W (Proc.devRef .tc main_arg1))))
          (mulf (constant S_ .f32 0x3F800000#32) (intraV W)) := by
  after_results_simp
  rfl

section Third
variable (hH : ∀ (k : Fin 2) (hi : Fin 16) (lo : Fin 256),
    (W (Proc.devRef .tc main_v17) : FVec Ideal S2x16x256 .f32) (ix3 k hi lo)
      = ∑ p ∈ Cert.Spec.pixH sg (⟨hi.val * 256 + lo.val, by omega⟩ : Fin 4096) k, Cert.Spec.hinge E sg p)
variable (hN : ∀ c : Fin 4096, (W (Proc.devRef .tc main_v10) : FVec Ideal S4096 .f32) (ix1 c) = Cert.Spec.nn sg c)
variable (hM : ∀ (e : Fin 16) (c : Fin 4096),
    (W (Proc.devRef .tc main_v13) : FVec Ideal S16x4096 .f32) (ix2 e c) = Cert.Spec.means E sg c e)
include hH hN hM

theorem hingeV_digits (hi : Fin 16) (lo : Fin 256) :
    hingeV W (ix1 (⟨hi.val * 256 + lo.val, by omega⟩ : Fin 4096))
      = ∑ p ∈ Cert.Spec.pix sg (⟨hi.val * 256 + lo.val, by omega⟩ : Fin 4096), Cert.Spec.hinge E sg p := by
  have hh : hi.val < 16 := hi.isLt
  have hl : lo.val < 256 := lo.isLt
  unfold hingeV
  refine (shapeCast_apply _ shapeCasts_S16x256_S4096 _ (ix2 hi lo) (by
      rewrite [Shape.rowMajor_val_two, Shape.rowMajor_val_one]
      show hi.val * 256 + lo.val = hi.val * 256 + lo.val
      rfl)).trans ?_
  rw [rows16_apply, hH, hH]
  exact Cert.Spec.sum_halves sg _ (Cert.Spec.hinge E sg)

theorem hingeV_apply (c : Fin 4096) :
    hingeV W (ix1 c) = ∑ p ∈ Cert.Spec.pix sg c, Cert.Spec.hinge E sg p := by
  have h := hingeV_digits W E sg hH hN hM (⟨c.val / 256, by omega⟩ : Fin 16) (⟨c.val % 256, Nat.mod_lt _ (by decide)⟩ : Fin 256)
  rw [seg_digits c] at h
  exact h

theorem tableV_eq : tableV W = Cert.Final.meansTable E sg := by
  funext j
  obtain ⟨c, e, rfl⟩ : ∃ (c : Fin 4096) (e : Fin 16), j = ix2 c e := ⟨j 0, j 1, eq_ix2 j⟩
  unfold tableV
  refine (transpose_apply [1, 0] _ transposes_S16x4096_S4096x16_1_0 (ix2 c e) (ix2 e c) (fun b => match b with
    | ⟨0, _⟩ => rfl
    | ⟨1, _⟩ => rfl)).trans ?_
  exact hM e c

/-- Segment by segment: the hinge total over the guarded size, averaged over the 4096 segments. -/
theorem intraV_eq : intraV W = fun _ => Cert.Spec.intraBySegment E sg := by
  funext i
  unfold intraV
  show Ideal.div (Host.reduceAdd (Host.divf (hingeV W) (W (Proc.devRef .tc main_v10) : FVec Ideal S4096 .f32))
      (constant S_ .f32 0x00000000#32) reducesTo_S4096_S_d0 h_S_ i) (constant (F := Ideal) S_ .f32 0x45800000#32 i) = _
  rw [constant_apply]
  simp only [Host.reduceAdd, Ideal.hostReduceAdd_def]
  rw [Ideal.hostReduceAdd_total reducesTo_S4096_S_d0 (fun b => b.elim0), constant_apply, Ideal.ofBits_zero_f32, zero_add]
  unfold Cert.Spec.intraBySegment
  refine congrArg (Ideal.div · Cert.Spec.c4096) ?_
  refine Fintype.sum_equiv idxEquiv1 _ _ (fun j => ?_)
  obtain ⟨c, rfl⟩ : ∃ c : Fin 4096, j = ix1 c := ⟨j 0, eq_ix1 j⟩
  show Ideal.div (hingeV W (ix1 c)) ((W (Proc.devRef .tc main_v10) : FVec Ideal S4096 .f32) (ix1 c)) = _
  rw [hingeV_apply W E sg hH hN hM c, hN c]
  rfl

theorem result_eq :
    (StableHlo.after (hostOps2 (F := Ideal)) W (Proc.devRef .tc main_v55) : FVec Ideal S_ .f32)
      = Cert.Final.total (Cert.Final.interOf (Cert.Final.meansTable E sg) (W (Proc.devRef .tc main_arg3)) (W (Proc.devRef .tc main_arg1)))
          (Cert.Spec.intraBySegment E sg) := by
  rw [after_v55, tableV_eq W E sg hH hN hM, intraV_eq W E sg hH hN hM]
  rfl

end Third

end Cert.KernelIdeal.Host

end
-- ==== Proof.KernelValue.lean ====
import proofs.«415856_j56882546868663_3_alg».proof.Proof.WholeRun
import proofs.«415856_j56882546868663_3_alg».proof.Proof.StatsValue
import proofs.«415856_j56882546868663_3_alg».proof.Proof.IntraValue
import proofs.«415856_j56882546868663_3_alg».proof.Proof.KernelHost

noncomputable section

namespace Cert.KernelIdeal.Value

open Cert.KernelIdeal Cert.KernelIdeal.Gen Cert.KernelIdeal.Whole
open Idealize.ShloMosaic Idealize.ShloMosaic.TcCoe Idealize.ShloMosaic.ValueIdx
open Idealize.SL Idealize.SL.Sem
open Idealize.ShloMosaic.Pipeline (Dat)

variable [Cert.ReferenceIdeal.Facts]
variable (m : (ℓ : Loc nD τ sig) → Buf (Elt Ideal) ℓ) (ρ : Dev nD → PrngReg) (c : Dev nD)
variable (hseg : ∀ p, (Cert.Final.segW (m ((c : Thread nD τ).loc main_arg2)) p).toNat < 4096)

abbrev E : Fin 16 → Fin 1048576 → EReal := Cert.Final.embT (m ((c : Thread nD τ).loc main_arg0))
abbrev sg : Fin 1048576 → Fin 4096 := Cert.Final.sgF (m ((c : Thread nD τ).loc main_arg2)) hseg

theorem hE1 (e : Fin 16) (p : Fin 1048576) : (B1 m c main_v0 : FVec Ideal S16x1048576 .f32) (ix2 e p) = E m c e p :=
  Cert.KernelIdeal.Host.emb_apply (W0 m c) e p

theorem hsg1 (p : Fin 1048576) : ((B1 m c main_v1 : IVec S1x1048576 32) (ix2 (0 : Fin 1) p)).toNat = (sg m c hseg p).val := by
  have h := Cert.KernelIdeal.Host.seg_apply (W0 m c) p
  show ((StableHlo.after (hostOps0 (F := Ideal)) (W0 m c) (Proc.devRef .tc main_v1) : IVec S1x1048576 32) (ix2 (0 : Fin 1) p)).toNat
    = (Cert.Final.segW (m ((c : Thread nD τ).loc main_arg2)) p).toNat
  rw [h]

theorem hC (k : Fin 2) (hi : Fin 16) (lo : Fin 256) :
    (W2 m c (Proc.devRef .tc main_v2_0) : FVec Ideal S2x16x256 .f32) (ix3 k hi lo)
      = ∑ _p ∈ Cert.Spec.pixH (sg m c hseg) (⟨hi.val * 256 + lo.val, by omega⟩ : Fin 4096) k, (1 : EReal) :=
  (congrFun (W2_arr m c 2) (ix3 k hi lo)).trans
    (Cert.KernelIdeal.StatsValue.counts_arr (B1 m) c (E m c) (sg m c hseg) (hE1 m c) (hsg1 m c hseg) k hi lo)

theorem hS (k : Fin 2) (hi e : Fin 16) (lo : Fin 256) :
    (W2 m c (Proc.devRef .tc main_v2_1) : FVec Ideal S2x256x256 .f32) (ix3 k (⟨hi.val * 16 + e.val, by omega⟩ : Fin 256) lo)
      = ∑ p ∈ Cert.Spec.pixH (sg m c hseg) (⟨hi.val * 256 + lo.val, by omega⟩ : Fin 4096) k, E m c e p :=
  (congrFun (W2_arr m c 3) (ix3 k _ lo)).trans
    (Cert.KernelIdeal.StatsValue.sums_arr (B1 m) c (E m c) (sg m c hseg) (hE1 m c) (hsg1 m c hseg) k hi e lo)

theorem V3_v0 : B3 m c main_v0 = B1 m c main_v0 :=
  (StableHlo.after_of_writes_sub hostOps1 _ hostOps1_writes (by decide : main_v0 ∉ hostOps1_W)).trans
    ((W2_arr m c 0).trans (((Stats.dat (B1 m) c).arrAt_in 0 rfl _).trans (Stats.A_eq (B1 m) c 0)))
theorem V3_v1 : B3 m c main_v1 = B1 m c main_v1 :=
  (StableHlo.after_of_writes_sub hostOps1 _ hostOps1_writes (by decide : main_v1 ∉ hostOps1_W)).trans
    ((W2_arr m c 1).trans (((Stats.dat (B1 m) c).arrAt_in 1 rfl _).trans (Stats.A_eq (B1 m) c 1)))

theorem hE3 (e : Fin 16) (p : Fin 1048576) : (B3 m c main_v0 : FVec Ideal S16x1048576 .f32) (ix2 e p) = E m c e p :=
  (congrFun (V3_v0 m c) (ix2 e p)).trans (hE1 m c e p)
theorem hsg3 (p : Fin 1048576) : ((B3 m c main_v1 : IVec S1x1048576 32) (ix2 (0 : Fin 1) p)).toNat = (sg m c hseg p).val := by
  rw [V3_v1 m c]
  exact hsg1 m c hseg p

theorem hM3 (hi e : Fin 16) (lo : Fin 256) :
    (B3 m c main_v16 : FVec Ideal S256x256 .f32) (ix2 (⟨hi.val * 16 + e.val, by omega⟩ : Fin 256) lo)
      = Cert.Spec.means (E m c) (sg m c hseg) (⟨hi.val * 256 + lo.val, by omega⟩ : Fin 4096) e :=
  Cert.KernelIdeal.Host.stack_apply (W2 m c) (E m c) (sg m c hseg) (hC m c hseg) (hS m c hseg) hi e lo

theorem hH (k : Fin 2) (hi : Fin 16) (lo : Fin 256) :
    (W4 m c (Proc.devRef .tc main_v17) : FVec Ideal S2x16x256 .f32) (ix3 k hi lo)
      = ∑ p ∈ Cert.Spec.pixH (sg m c hseg) (⟨hi.val * 256 + lo.val, by omega⟩ : Fin 4096) k, Cert.Spec.hinge (E m c) (sg m c hseg) p :=
  (congrFun (W4_arr m c 3) (ix3 k hi lo)).trans
    (Cert.KernelIdeal.IntraValue.hinge_arr (B3 m) c (E m c) (sg m c hseg) (hE3 m c) (hsg3 m c hseg) (hM3 m c hseg) k hi lo)

theorem hN (s : Fin 4096) : (W4 m c (Proc.devRef .tc main_v10) : FVec Ideal S4096 .f32) (ix1 s) = Cert.Spec.nn (sg m c hseg) s :=
  (congrFun (W4_of_ne m c main_v10 (by decide)) (ix1 s)).trans
    (Cert.KernelIdeal.Host.nn_apply (W2 m c) (E m c) (sg m c hseg) (hC m c hseg) (hS m c hseg) s)

theorem hM (e : Fin 16) (s : Fin 4096) :
    (W4 m c (Proc.devRef .tc main_v13) : FVec Ideal S16x4096 .f32) (ix2 e s) = Cert.Spec.means (E m c) (sg m c hseg) s e :=
  (congrFun (W4_of_ne m c main_v13 (by decide)) (ix2 e s)).trans
    (Cert.KernelIdeal.Host.means_apply (W2 m c) (E m c) (sg m c hseg) (hC m c hseg) (hS m c hseg) e s)

theorem W4_of_arg (r : Ref sig .tc) (h0 : r ∉ hostOps0_W) (h1 : r ∉ hostOps1_W)
    (hw0 : ∀ w, Pipeline.arrRef spec0 w ≠ r) (hw1 : ∀ w, Pipeline.arrRef spec1 w ≠ r) :
    W4 m c (Proc.devRef .tc r) = m ((c : Thread nD τ).loc r) :=
  calc W4 m c (Proc.devRef .tc r)
    _ = W3 m c (Proc.devRef .tc r) := W4_of_ne m c r hw1
    _ = W2 m c (Proc.devRef .tc r) := StableHlo.after_of_writes_sub hostOps1 _ hostOps1_writes h1
    _ = W1 m c (Proc.devRef .tc r) := W2_of_ne m c r hw0
    _ = W0 m c (Proc.devRef .tc r) := StableHlo.after_of_writes_sub hostOps0 _ hostOps0_writes h0
    _ = m ((c : Thread nD τ).loc r) := rfl

theorem result_eq :
    (W5 m c (Proc.devRef .tc main_v55) : FVec Ideal S_ .f32)
      = Cert.Final.total (Cert.Final.interOf (Cert.Final.meansTable (E m c) (sg m c hseg))
            (m ((c : Thread nD τ).loc main_arg3)) (m ((c : Thread nD τ).loc main_arg1)))
          (Cert.Spec.intraBySegment (E m c) (sg m c hseg)) := by
  have h := Cert.KernelIdeal.Host.result_eq (W4 m c) (E m c) (sg m c hseg) (hH m c hseg) (hN m c hseg) (hM m c hseg)
  rw [W4_of_arg m c main_arg3 (by decide) (by decide) (by decide) (by decide),
    W4_of_arg m c main_arg1 (by decide) (by decide) (by decide) (by decide)] at h
  exact h

theorem run_result (hsegAll : ∀ c : Dev nD, ∀ p, (Cert.Final.segW (m ((c : Thread nD τ).loc main_arg2)) p).toNat < 4096) :
    θ_run defs (onTc (τ := τ) (main (F := Ideal))) ⟨m, fun _ => 0, ρ⟩ (fun r => ∀ c : Dev nD,
      r.2.mem ((c.tc : Thread nD τ).loc main_v55)
          = Cert.Final.total (Cert.Final.interOf (Cert.Final.meansTable (E m c) (sg m c (hsegAll c)))
                (m ((c : Thread nD τ).loc main_arg3)) (m ((c : Thread nD τ).loc main_arg1)))
              (Cert.Spec.intraBySegment (E m c) (sg m c (hsegAll c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c _ (mem_uc main_v55 (by decide))).trans (result_eq m c (hsegAll c)),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c)⟩) (run_all m ρ)

end Cert.KernelIdeal.Value

end
-- ==== Proof.RefRun.lean ====
import proofs.«415856_j56882546868663_3_alg».proof.Proof.Gen.ReferenceIdeal.Run
import proofs.«415856_j56882546868663_3_alg».proof.Proof.Gen.ReferenceIdeal.Read
-- ==== Proof.LibScatterGather1.lean ====
import Idealize.ShloMosaic.PureOps.Ideal
import Idealize.ShloMosaic.PureOps.ShapeOps
import Idealize.ShloMosaic.PureOps.Contract
import Idealize.ShloMosaic.Lib.ValueIdxRank1
import Idealize.ShloMosaic.Lib.StableHlo.Predicate

noncomputable section

namespace Cert.LibScatterGather1

open Idealize.ShloMosaic Idealize.ShloMosaic.ValueIdx

section Scatter

variable {N M w : Nat}

theorem start_add_window (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (a : Fin 1) :
    d.start j idx a + (d.window j a : ℤ) = (idx (ix2 (n0 := M) (n1 := 1) (j 0) 0)).toInt := by
  obtain rfl : a = 0 := Subsingleton.elim _ _
  have hwin : d.window j 0 = 0 := by
    unfold ScatterDims.window
    rw [dif_neg]
    simp [ScatterDims.sKept, Shape.kept, hiw]
  have hm : (0 : Fin 1) ∈ d.scatterDimsToOperandDims := by rw [hsd]; exact List.mem_singleton.mpr rfl
  have hsi : d.siIdx j ⟨d.scatterDimsToOperandDims.idxOf 0, List.idxOf_lt_length_iff.2 hm⟩
      = ix2 (n0 := M) (n1 := 1) (j 0) 0 := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : d.start j idx 0 = (idx (ix2 (n0 := M) (n1 := 1) (j 0) 0)).toInt := by
    unfold ScatterDims.start
    rw [dif_pos hm, hsi]
  rw [hstart, hwin]; simp

theorem resultIdx?_iff (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (i : (⟨1, ![N]⟩ : Shape).Idx) :
    d.resultIdx? j idx = some i ↔ (idx (ix2 (n0 := M) (n1 := 1) (j 0) 0)).toInt = ((i 0).val : ℤ) := by
  have hT := start_add_window d hiw hsd hivd idx j
  unfold ScatterDims.resultIdx?
  constructor
  · intro h
    split at h
    · rename_i hc
      have hf := Option.some.inj h
      have h0 : (d.start j idx 0 + (d.window j 0 : ℤ)).toNat = (i 0).val := congrArg (fun f => (f 0).val) hf
      have hc0 := (hc 0).1
      rw [hT 0] at hc0 h0
      omega
    · exact absurd h (by simp)
  · intro h
    have hi : (i 0).val < N := (i 0).isLt
    have hc : ∀ a : Fin 1, 0 ≤ d.start j idx a + (d.window j a : ℤ)
        ∧ d.start j idx a + (d.window j a : ℤ) < ((⟨1, ![N]⟩ : Shape).size a : ℤ) := by
      intro a
      obtain rfl : a = 0 := Subsingleton.elim _ _
      rw [hT 0, h]
      refine ⟨by omega, ?_⟩
      show ((i 0).val : ℤ) < (N : ℤ)
      omega
    rw [dif_pos hc]
    refine congrArg some ?_
    funext a
    obtain rfl : a = 0 := Subsingleton.elim _ _
    apply Fin.ext
    show (d.start j idx 0 + (d.window j 0 : ℤ)).toNat = (i 0).val
    rw [hT 0, h]; simp

theorem scatterAdd_apply {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ)
    (i : (⟨1, ![N]⟩ : Shape).Idx) :
    Host.scatterAdd (F := Ideal) d x idx upd i
      = x i + ∑ j ∈ Finset.univ.filter (fun j : (⟨1, ![M]⟩ : Shape).Idx =>
          (idx (ix2 (n0 := M) (n1 := 1) (j 0) 0)).toInt = ((i 0).val : ℤ)), upd j := by
  show Ideal.hostScatterAdd d x idx upd i = _
  unfold Ideal.hostScatterAdd
  refine congrArg (x i + ·) ?_
  refine Finset.sum_congr ?_ (fun _ _ => rfl)
  ext j
  simp only [Finset.mem_filter, Finset.mem_univ, true_and]
  exact resultIdx?_iff d hiw hsd hivd idx j i

theorem scatterAdd_apply_fin {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ j ∈ Finset.univ.filter (fun j : Fin M => (idx (ix2 j (0 : Fin 1))).toInt = (u.val : ℤ)),
          upd (ix1 j) := by
  rw [scatterAdd_apply d hiw hsd hivd]
  refine congrArg (x (ix1 u) + ·) ?_
  rw [Finset.sum_filter, Finset.sum_filter]
  exact (Equiv.sum_comp (idxEquiv1 (n := M)).symm _).symm

end Scatter

section Gather

variable {α : Type} {N M w : Nat}

theorem gather_apply_clamp (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M) (hN : 0 < N) :
    Host.gather d x idx (ix1 j)
      = x (ix1 ⟨min (idx (ix2 j (0 : Fin 1))).toInt.toNat (N - 1), by omega⟩) := by
  have h1 : ∀ {n : Nat} (k : Fin n), Shape.Idx.ofFin k = ix1 k := fun k => by
    funext a; obtain rfl : a = 0 := Subsingleton.elim _ _; exact Fin.ext rfl
  have h2 : StableHlo.Predicate.ixP j = ix2 j (0 : Fin 1) := by
    funext b; match b with | ⟨0, _⟩ => rfl | ⟨1, _⟩ => rfl
  rw [← h1 j, StableHlo.Predicate.gather_take d hcoll hob hsim hivd x idx j hN, h1]
  refine congrArg x (congrArg ix1 (Fin.ext ?_))
  show min (idx (StableHlo.Predicate.ixP j)).toInt.toNat (N - 1) = min (idx (ix2 j (0 : Fin 1))).toInt.toNat (N - 1)
  rw [h2]

theorem gather_apply (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M)
    (hN : 2 * N ≤ 2 ^ w) (h : (idx (ix2 j (0 : Fin 1))).toNat < N) :
    Host.gather d x idx (ix1 j) = x (ix1 ⟨(idx (ix2 j (0 : Fin 1))).toNat, h⟩) := by
  have hN0 : 0 < N := by omega
  rw [gather_apply_clamp d hcoll hob hsim hivd x idx j hN0]
  refine congrArg x (congrArg ix1 (Fin.ext ?_))
  show min (idx (ix2 j (0 : Fin 1))).toInt.toNat (N - 1) = (idx (ix2 j (0 : Fin 1))).toNat
  rw [BitVec.toInt_eq_toNat_of_lt (by omega), Int.toNat_natCast]
  omega

end Gather

end Cert.LibScatterGather1

end
-- ==== Proof.LibScatterGather2.lean ====
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

section Scatter

variable {N C M w : Nat}

theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

section Gather

variable {α : Type} {N C M w : Nat}

theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.RefValue.lean ====
import proofs.«415856_j56882546868663_3_alg».proof.Proof.RefRun
import proofs.«415856_j56882546868663_3_alg».proof.Proof.Spec
import proofs.«415856_j56882546868663_3_alg».proof.Proof.Final
import proofs.«415856_j56882546868663_3_alg».proof.Proof.LibScatterGather1
import proofs.«415856_j56882546868663_3_alg».proof.Proof.LibScatterGather2
import Idealize.ShloMosaic.Lib.StableHlo.Predicate
import Idealize.ShloMosaic.Lib.ValueIdx
import Idealize.ShloMosaic.Lib.IdealHost
import Idealize.ShloMosaic.PureOps.Ideal.Laws

noncomputable section

namespace Cert.RefValue

open Idealize.ShloMosaic Idealize.ShloMosaic.ValueIdx Idealize.ShloMosaic.TcCoe Idealize.SL.Sem
open Cert.ReferenceIdeal Cert.ReferenceIdeal.Gen Cert.ReferenceIdeal.Read

/-- A label below 4096 is not negative, so wrapping negative indices leaves it alone. -/
theorem sel_id (w : BitVec 32) (h : w.toNat < 4096) :
    Scalar.select (IntOp.cmpi .slt w 0#32) (IntOp.addi w 4096#32) w = w := by
  have hn : ¬ IntOp.cmpi .slt w 0#32 = 1#1 := by
    rw [StableHlo.Predicate.slt_iff_toNat (by omega) (by decide)]
    simp
  rw [eq_zero_of_ne_one hn, select_zero]

theorem word_iff (w : BitVec 32) (h : w.toNat < 4096) (c' : Fin 4096) :
    w.toInt = (c'.val : ℤ) ↔ (⟨w.toNat, h⟩ : Fin 4096) = c' := by
  rw [StableHlo.Predicate.toInt_eq_toNat_of_lt (by omega), Fin.ext_iff]
  exact Int.ofNat_inj

theorem v3_at (i : S1048576.Idx) : val_main_v3 (F := Ideal) i = 1 := by
  rw [val_main_v3_apply, val_main_cst_apply]; exact Ideal.ofBits_one_f32
theorem v4_at (i : S4096.Idx) : val_main_v4 (F := Ideal) i = 0 := by
  rw [val_main_v4_apply, val_main_cst_0_apply]; exact Ideal.ofBits_zero_f32
theorem v7_at (i : S4096x16.Idx) : val_main_v7 (F := Ideal) i = 0 := by
  rw [val_main_v7_apply, val_main_cst_1_apply]; exact Ideal.ofBits_zero_f32
theorem v10_at (i : S4096.Idx) : val_main_v10 (F := Ideal) i = 1 := by
  rw [val_main_v10_apply, val_main_cst_2_apply]; exact Ideal.ofBits_one_f32
theorem v24_at (i : S1048576.Idx) : val_main_v24 (F := Ideal) i = 1 := by
  rw [val_main_v24_apply, val_main_cst_5_apply]; exact Ideal.ofBits_one_f32
theorem v26_at (i : S1048576.Idx) : val_main_v26 (F := Ideal) i = Cert.Spec.half := by
  rw [val_main_v26_apply, val_main_cst_6_apply]; rfl
theorem v28_at (i : S1048576.Idx) : val_main_v28 (F := Ideal) i = 0 := by
  rw [val_main_v28_apply, val_main_cst_7_apply]; exact Ideal.ofBits_zero_f32
theorem cst4_at (i : S_.Idx) : val_main_cst_4 (F := Ideal) i = 0 := Ideal.ofBits_zero_f32
theorem cst10_at (i : S_.Idx) : val_main_cst_10 (F := Ideal) i = 0 := Ideal.ofBits_zero_f32
theorem cst11_at (i : S_.Idx) : val_main_cst_11 (F := Ideal) i = Cert.Spec.c4096 := rfl

section Args

variable (a0 : FVec Ideal S1x16x1024x1024 .f32) (a2 : IVec S1x1x1024x1024 32)

theorem v5_at (p : Fin 1048576) : val_main_v5 (F := Ideal) a2 (ix2 p (0 : Fin 1)) = Cert.Final.segW a2 p := by
  rw [val_main_v5_apply]
  exact congrArg (val_main_v2 (F := Ideal) a2) (funext fun a => match a with | ⟨0, _⟩ => rfl)

theorem v8_at (p : Fin 1048576) : val_main_v8 (F := Ideal) a2 (ix2 p (0 : Fin 1)) = Cert.Final.segW a2 p := by
  rw [val_main_v8_apply]
  exact congrArg (val_main_v2 (F := Ideal) a2) (funext fun a => match a with | ⟨0, _⟩ => rfl)

theorem v1_at (p : Fin 1048576) (e : Fin 16) :
    val_main_v1 (F := Ideal) a0 (ix2 p e) = Cert.Final.embT a0 e p := by
  rw [val_main_v1_apply]
  exact congrArg (val_main_v0 (F := Ideal) a0) (funext fun a => match a with | ⟨0, _⟩ => rfl | ⟨1, _⟩ => rfl)

variable (hseg : ∀ p, (Cert.Final.segW a2 p).toNat < 4096)

theorem filter_eq (idx : IVec S1048576x1 32) (hidx : ∀ p, idx (ix2 p (0 : Fin 1)) = Cert.Final.segW a2 p)
    (c' : Fin 4096) :
    (Finset.univ.filter fun p : Fin 1048576 => (idx (ix2 p (0 : Fin 1))).toInt = (c'.val : ℤ))
      = Cert.Spec.pix (Cert.Final.sgF a2 hseg) c' := by
  unfold Cert.Spec.pix
  refine Finset.filter_congr fun p _ => ?_
  rw [hidx p]
  exact word_iff _ (hseg p) c'

/-- Scattering ones by label counts each segment's pixels. -/
theorem v6_at (c' : Fin 4096) :
    val_main_v6 (F := Ideal) a2 (ix1 c') = Cert.Spec.cnt (Cert.Final.sgF a2 hseg) c' := by
  unfold val_main_v6 Cert.Spec.cnt
  refine (LibScatterGather1.scatterAdd_apply_fin (N := 4096) (M := 1048576) (w := 32)
    scatter_S4096_S1048576x1_S1048576_n_0_0_1 rfl rfl rfl (val_main_v4 (F := Ideal)) (val_main_v5 (F := Ideal) a2)
    (val_main_v3 (F := Ideal)) c').trans ?_
  rw [v4_at, zero_add, filter_eq a2 hseg _ (v5_at a2) c']
  exact Finset.sum_congr rfl fun p _ => v3_at _

theorem v11_at (c' : Fin 4096) :
    val_main_v11 (F := Ideal) a2 (ix1 c') = Cert.Spec.nn (Cert.Final.sgF a2 hseg) c' := by
  rw [val_main_v11_apply, v6_at a2 hseg, v10_at]; rfl

theorem v13_at (c' : Fin 4096) (e : Fin 16) :
    val_main_v13 (F := Ideal) a2 (ix2 c' e) = Cert.Spec.nn (Cert.Final.sgF a2 hseg) c' := by
  rw [val_main_v13_apply, val_main_v12_apply, ← v11_at a2 hseg c']
  exact congrArg (val_main_v11 (F := Ideal) a2) (funext fun a => match a with | ⟨0, _⟩ => rfl)

/-- Scattering the embeddings by label sums each segment's channels. -/
theorem v9_at (c' : Fin 4096) (e : Fin 16) :
    val_main_v9 (F := Ideal) a0 a2 (ix2 c' e)
      = Cert.Spec.sums (Cert.Final.embT a0) (Cert.Final.sgF a2 hseg) c' e := by
  unfold val_main_v9 Cert.Spec.sums
  refine (LibScatterGather2.scatterAdd_apply (N := 4096) (C := 16) (M := 1048576) (w := 32)
    scatter_S4096x16_S1048576x1_S1048576x16_1_0_0_1 rfl rfl rfl rfl (val_main_v7 (F := Ideal))
    (val_main_v8 (F := Ideal) a2) (val_main_v1 (F := Ideal) a0) c' e).trans ?_
  rw [v7_at, zero_add, filter_eq a2 hseg _ (v8_at a2) c']
  exact Finset.sum_congr rfl fun p _ => v1_at a0 p e

theorem means_eq :
    val_main_v14 (F := Ideal) a0 a2 = Cert.Final.meansTable (Cert.Final.embT a0) (Cert.Final.sgF a2 hseg) := by
  funext j
  obtain ⟨c', e, rfl⟩ : ∃ c' e, j = ix2 c' e := ⟨j 0, j 1, eq_ix2 j⟩
  rw [val_main_v14_apply, v9_at a0 a2 hseg, v13_at a2 hseg]
  rfl

include hseg in
theorem v19_eq : val_main_v19 (F := Ideal) a2 = val_main_v2 (F := Ideal) a2 := by
  funext i
  obtain ⟨p, rfl⟩ : ∃ p, i = ix1 p := ⟨i 0, eq_ix1 i⟩
  rw [val_main_v19_apply, val_main_v16_apply, val_main_v18_apply, val_main_v15_apply, val_main_c_apply,
    val_main_v17_apply, val_main_c_3_apply]
  exact sel_id _ (hseg p)

include hseg in
theorem v34_eq : val_main_v34 (F := Ideal) a2 = val_main_v2 (F := Ideal) a2 := by
  funext i
  obtain ⟨p, rfl⟩ : ∃ p, i = ix1 p := ⟨i 0, eq_ix1 i⟩
  rw [val_main_v34_apply, val_main_v31_apply, val_main_v33_apply, val_main_v30_apply, val_main_c_8_apply,
    val_main_v32_apply, val_main_c_9_apply]
  exact sel_id _ (hseg p)

include hseg in
theorem v20_eq : val_main_v20 (F := Ideal) a2 = val_main_v5 (F := Ideal) a2 := by
  unfold val_main_v20 val_main_v5; rw [v19_eq a2 hseg]

include hseg in
theorem v35_eq : val_main_v35 (F := Ideal) a2 = val_main_v5 (F := Ideal) a2 := by
  unfold val_main_v35 val_main_v5; rw [v34_eq a2 hseg]

theorem row_eq (p : Fin 1048576) (h : (val_main_v5 (F := Ideal) a2 (ix2 p (0 : Fin 1))).toNat < 4096) :
    (⟨(val_main_v5 (F := Ideal) a2 (ix2 p (0 : Fin 1))).toNat, h⟩ : Fin 4096) = Cert.Final.sgF a2 hseg p := by
  apply Fin.ext
  show (val_main_v5 (F := Ideal) a2 (ix2 p (0 : Fin 1))).toNat = (Cert.Final.segW a2 p).toNat
  rw [v5_at]

theorem v21_at (p : Fin 1048576) (k : Fin 16) :
    val_main_v21 (F := Ideal) a0 a2 (ix2 p k)
      = Cert.Spec.means (Cert.Final.embT a0) (Cert.Final.sgF a2 hseg) (Cert.Final.sgF a2 hseg p) k := by
  unfold val_main_v21
  rw [v20_eq a2 hseg, means_eq a0 a2 hseg]
  have h : (val_main_v5 (F := Ideal) a2 (ix2 p (0 : Fin 1))).toNat < 4096 := by rw [v5_at]; exact hseg p
  refine (LibScatterGather2.gather_apply (N := 4096) (C := 16) (M := 1048576) (w := 32)
    gather_S4096x16_S1048576x1_S1048576x16_1_0_n_n_0_1_116 rfl rfl rfl rfl rfl
    (Cert.Final.meansTable (Cert.Final.embT a0) (Cert.Final.sgF a2 hseg)) (val_main_v5 (F := Ideal) a2) p k
    (by norm_num) h).trans ?_
  exact congrArg (fun r => Cert.Spec.means (Cert.Final.embT a0) (Cert.Final.sgF a2 hseg) r k)
    (row_eq a2 hseg p h)

theorem v36_at (p : Fin 1048576) :
    val_main_v36 (F := Ideal) a2 (ix1 p)
      = Cert.Spec.nn (Cert.Final.sgF a2 hseg) (Cert.Final.sgF a2 hseg p) := by
  unfold val_main_v36
  rw [v35_eq a2 hseg]
  have h : (val_main_v5 (F := Ideal) a2 (ix2 p (0 : Fin 1))).toNat < 4096 := by rw [v5_at]; exact hseg p
  refine (LibScatterGather1.gather_apply (N := 4096) (M := 1048576) (w := 32)
    gather_S4096_S1048576x1_S1048576_n_0_n_n_0_1_1 rfl rfl rfl rfl
    (val_main_v11 (F := Ideal) a2) (val_main_v5 (F := Ideal) a2) p (by norm_num) h).trans ?_
  exact (congrArg (fun r => val_main_v11 (F := Ideal) a2 (ix1 r)) (row_eq a2 hseg p h)).trans
    (v11_at a2 hseg _)

theorem v23_at (p : Fin 1048576) :
    val_main_v23 (F := Ideal) a0 a2 (ix1 p)
      = ∑ e : Fin 16, Cert.Spec.means (Cert.Final.embT a0) (Cert.Final.sgF a2 hseg) (Cert.Final.sgF a2 hseg p) e
          * Cert.Final.embT a0 e p := by
  rw [val_main_v23_apply, cst4_at, zero_add]
  refine Finset.sum_congr rfl fun k _ => ?_
  rw [show idx_main_v23 (ix1 p) k = ix2 p k from
    funext fun a => match a with | ⟨0, _⟩ => rfl | ⟨1, _⟩ => rfl]
  rw [val_main_v22_apply, v21_at a0 a2 hseg, v1_at]
  rfl

/-- Pixel p's hinge against the mean of its own segment. -/
theorem v29_at (p : Fin 1048576) :
    val_main_v29 (F := Ideal) a0 a2 (ix1 p)
      = Cert.Spec.hinge (Cert.Final.embT a0) (Cert.Final.sgF a2 hseg) p := by
  rw [val_main_v29_apply, val_main_v27_apply, val_main_v25_apply, v23_at a0 a2 hseg, v24_at, v26_at, v28_at]
  rfl

theorem v39_eq :
    val_main_v39 (F := Ideal) a0 a2
      = fun _ => Cert.Spec.intraByPixel (Cert.Final.embT a0) (Cert.Final.sgF a2 hseg) := by
  funext i
  rw [val_main_v39_apply, val_main_v38_apply, cst10_at, cst11_at, zero_add, Ideal.hostDivf_def]
  unfold Cert.Spec.intraByPixel
  refine congrArg (fun x => Ideal.div x Cert.Spec.c4096) ?_
  refine (Equiv.sum_comp (idxEquiv1 (n := 1048576)).symm
    (val_main_v37 (F := Ideal) a0 a2)).symm.trans ?_
  refine Finset.sum_congr rfl fun p _ => ?_
  show val_main_v37 (F := Ideal) a0 a2 (ix1 p) = _
  rw [val_main_v37_apply, v29_at a0 a2 hseg, v36_at a2 hseg]
  rfl

end Args

theorem inter_eq (a0 : FVec Ideal S1x16x1024x1024 .f32) (a1 : FVec Ideal S16384 .f32)
    (a2 : IVec S1x1x1024x1024 32) (a3 : IVec S2x16384 32) :
    val_main_v68 (F := Ideal) a0 a1 a2 a3 = Cert.Final.interOf (val_main_v14 (F := Ideal) a0 a2) a3 a1 := rfl

/-- The reference's result: the pair term over the table of means plus the hinge term taken pixel by pixel. -/
theorem ref_eq (a0 : FVec Ideal S1x16x1024x1024 .f32) (a1 : FVec Ideal S16384 .f32)
    (a2 : IVec S1x1x1024x1024 32) (a3 : IVec S2x16384 32)
    (hseg : ∀ p, (Cert.Final.segW a2 p).toNat < 4096) :
    val_main_v71 (F := Ideal) a0 a1 a2 a3
      = Cert.Final.total
          (Cert.Final.interOf (Cert.Final.meansTable (Cert.Final.embT a0) (Cert.Final.sgF a2 hseg)) a3 a1)
          (Cert.Spec.intraByPixel (Cert.Final.embT a0) (Cert.Final.sgF a2 hseg)) := by
  unfold val_main_v71 val_main_v69 val_main_v70 Cert.Final.total
  rw [inter_eq, means_eq a0 a2 hseg, v39_eq a0 a2 hseg]
  rfl

end Cert.RefValue

end
-- ==== Proof.PreDecode.lean ====
import proofs.«415856_j56882546868663_3_alg».proof.Pre_finite_inputs
import proofs.«415856_j56882546868663_3_alg».proof.Proof.Gen.Pre_finite_inputs
import proofs.«415856_j56882546868663_3_alg».proof.ReferenceIdeal
import proofs.«415856_j56882546868663_3_alg».proof.Proof.Final
import Idealize.ShloMosaic.Lib.StableHlo.Predicate
import Idealize.ShloMosaic.Lib.ReduceAll
import Idealize.ShloMosaic.Lib.ValueIdx
import Idealize.ShloMosaic.Lib.Pipeline.Value

noncomputable section

namespace Cert.PreDecode

open Idealize.ShloMosaic

instance subsingleton_scalar_idx : Subsingleton Cert.Pre_finite_inputs.S_.Idx :=
  ⟨fun a b => funext fun d => d.elim0⟩

theorem toNat_lt_of_signed (w : BitVec 32) (h0 : IntOp.cmpi .sge w 0#32 = 1#1)
    (h1 : IntOp.cmpi .slt w 4096#32 = 1#1) : w.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hw := w.isLt
  by_cases hm : 2 * w.toNat < 2 ^ 32
  · have e : w.toInt = (w.toNat : Int) := by rw [BitVec.toInt_eq_toNat_cond, if_pos hm]
    omega
  · have e : w.toInt = (w.toNat : Int) - (2 ^ 32 : Nat) := by rw [BitVec.toInt_eq_toNat_cond, if_neg hm]
    omega

theorem lbl_lt_of_pre [hP : Cert.Pre_finite_inputs.Facts] {F : FTy → Type} [FloatOps F]
    (a0 : FVec F Cert.Pre_finite_inputs.S1x16x1024x1024 .f32) (a1 : FVec F Cert.Pre_finite_inputs.S16384 .f32)
    (a2 : IVec Cert.Pre_finite_inputs.S1x1x1024x1024 32) (a3 : IVec Cert.Pre_finite_inputs.S2x16384 32)
    (h : Cert.Pre_finite_inputs.fn (F := F) a0 a1 a2 a3 = fun _ => 1#1) :
    ∀ i : Cert.Pre_finite_inputs.S1x1x1024x1024.Idx, (a2 i).toNat < 4096 := by
  intro i
  have e := congrFun h ValueIdx.ix0
  dsimp only [Cert.Pre_finite_inputs.fn, Cert.Pre_finite_inputs.fn_part1] at e
  simp only [andi, IntOp.andi_eq_one] at e
  obtain ⟨⟨-, hge⟩, hlt⟩ := e
  have cge := Host.reduce_andi_all _ _ _ _ _ hge i
  have clt := Host.reduce_andi_all _ _ _ _ _ hlt i
  exact toNat_lt_of_signed (a2 i) cge clt

theorem seg_lt_of_pre [hP : Cert.Pre_finite_inputs.Facts] [hR : Cert.ReferenceIdeal.Facts] {F : FTy → Type} [FloatOps F]
    (a0 : FVec F Cert.Pre_finite_inputs.S1x16x1024x1024 .f32) (a1 : FVec F Cert.Pre_finite_inputs.S16384 .f32)
    (a2 : IVec Cert.Pre_finite_inputs.S1x1x1024x1024 32) (a3 : IVec Cert.Pre_finite_inputs.S2x16384 32)
    (h : Cert.Pre_finite_inputs.fn (F := F) a0 a1 a2 a3 = fun _ => 1#1) :
    ∀ p : Fin 1048576, (Cert.Final.segW a2 p).toNat < 4096 := by
  intro p
  unfold Cert.Final.segW shapeCast
  exact lbl_lt_of_pre a0 a1 a2 a3 h _

end Cert.PreDecode

end
-- ==== Proof.lean ====
import proofs.«415856_j56882546868663_3_alg».proof.Defs
import proofs.«415856_j56882546868663_3_alg».proof.Proof.Gen.Kernel
import proofs.«415856_j56882546868663_3_alg».proof.Proof.Gen.KernelIdeal
import proofs.«415856_j56882546868663_3_alg».proof.Proof.Gen.ReferenceIdeal
import proofs.«415856_j56882546868663_3_alg».proof.Proof.Gen.Pre_finite_inputs
import proofs.«415856_j56882546868663_3_alg».proof.Proof.BitsWholeRun
import proofs.«415856_j56882546868663_3_alg».proof.Proof.KernelValue
import proofs.«415856_j56882546868663_3_alg».proof.Proof.RefValue
import proofs.«415856_j56882546868663_3_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Whole.frame m ρ

theorem frame_ki : Cert.frame_KernelIdeal := fun m ρ _ => Cert.KernelIdeal.Whole.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the pair term over the segment means plus the hinge term; summing the hinges by segment or by pixel is the same sum. -/
theorem algebraic : Cert.algebraic_KernelIdeal_ReferenceIdeal := by
  intro m ρ m' ρ' hpre hagree
  have hseg : ∀ (c : Dev Cert.KernelIdeal.nD) (p : Fin 1048576),
      (Cert.Final.segW (m ((c.tc : Thread Cert.KernelIdeal.nD Cert.KernelIdeal.τ).loc Cert.KernelIdeal.main_arg2)) p).toNat < 4096 :=
    fun c => Cert.PreDecode.seg_lt_of_pre _ _ _ _ (hpre c)
  refine ⟨_, Cert.KernelIdeal.Value.run_result m ρ hseg, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2.1, (hagree c).2.2.1, (hagree c).2.2.2,
    Cert.RefValue.ref_eq _ _ _ _ (hseg c), Cert.Spec.intra_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
